-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)) →
    ∃ (v0 : (c : Dev Cert.KernelIdeal.nD) → Buf (Elt Ideal) ((c.tc : Thread Cert.KernelIdeal.nD Cert.KernelIdeal.τ).loc Cert.KernelIdeal.main_v157)) (v1 : (c : Dev Cert.KernelIdeal.nD) → Buf (Elt Ideal) ((c.tc : Thread Cert.KernelIdeal.nD Cert.KernelIdeal.τ).loc Cert.KernelIdeal.main_v172)) (v2 : (c : Dev Cert.KernelIdeal.nD) → Buf (Elt Ideal) ((c.tc : Thread Cert.KernelIdeal.nD Cert.KernelIdeal.τ).loc Cert.KernelIdeal.main_v187)) (v3 : (c : Dev Cert.KernelIdeal.nD) → Buf (Elt Ideal) ((c.tc : Thread Cert.KernelIdeal.nD Cert.KernelIdeal.τ).loc Cert.KernelIdeal.main_v142)) (v4 : (c : Dev Cert.KernelIdeal.nD) → Buf (Elt Ideal) ((c.tc : Thread Cert.KernelIdeal.nD Cert.KernelIdeal.τ).loc Cert.KernelIdeal.main_v188)) (v5 : (c : Dev Cert.KernelIdeal.nD) → Buf (Elt Ideal) ((c.tc : Thread Cert.KernelIdeal.nD Cert.KernelIdeal.τ).loc Cert.KernelIdeal.main_v189)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v157) = v0 c
          ∧ r.2.mem ((c.tc : Thread Cert.KernelIdeal.nD Cert.KernelIdeal.τ).loc Cert.KernelIdeal.main_v172) = v1 c
          ∧ r.2.mem ((c.tc : Thread Cert.KernelIdeal.nD Cert.KernelIdeal.τ).loc Cert.KernelIdeal.main_v187) = v2 c
          ∧ r.2.mem ((c.tc : Thread Cert.KernelIdeal.nD Cert.KernelIdeal.τ).loc Cert.KernelIdeal.main_v142) = v3 c
          ∧ r.2.mem ((c.tc : Thread Cert.KernelIdeal.nD Cert.KernelIdeal.τ).loc Cert.KernelIdeal.main_v188) = v4 c
          ∧ r.2.mem ((c.tc : Thread Cert.KernelIdeal.nD Cert.KernelIdeal.τ).loc Cert.KernelIdeal.main_v189) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v138) = v1 c
          ∧ r.2.mem ((c.tc : Thread Cert.ReferenceIdeal.nD Cert.ReferenceIdeal.τ).loc Cert.ReferenceIdeal.main_v153) = v2 c
          ∧ r.2.mem ((c.tc : Thread Cert.ReferenceIdeal.nD Cert.ReferenceIdeal.τ).loc Cert.ReferenceIdeal.main_v164) = v3 c
          ∧ r.2.mem ((c.tc : Thread Cert.ReferenceIdeal.nD Cert.ReferenceIdeal.τ).loc Cert.ReferenceIdeal.main_v165) = v4 c
          ∧ r.2.mem ((c.tc : Thread Cert.ReferenceIdeal.nD Cert.ReferenceIdeal.τ).loc Cert.ReferenceIdeal.main_v166) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2 : Shape := ⟨2, ![1, 2]⟩
abbrev S5x8 : Shape := ⟨2, ![5, 8]⟩
abbrev S200000x8 : Shape := ⟨2, ![200000, 8]⟩
abbrev S1x1x128 : Shape := ⟨3, ![1, 1, 128]⟩
abbrev S128x2 : Shape := ⟨2, ![128, 2]⟩
abbrev S128 : Shape := ⟨1, ![128]⟩
abbrev S128x8 : Shape := ⟨2, ![128, 8]⟩
abbrev S128x128 : Shape := ⟨2, ![128, 128]⟩
abbrev S128x640 : Shape := ⟨2, ![128, 640]⟩
abbrev S512x128 : Shape := ⟨2, ![512, 128]⟩
abbrev S512 : Shape := ⟨1, ![512]⟩
abbrev S3x128 : Shape := ⟨2, ![3, 128]⟩
abbrev S3 : Shape := ⟨1, ![3]⟩
abbrev S9x128 : Shape := ⟨2, ![9, 128]⟩
abbrev S9 : Shape := ⟨1, ![9]⟩
abbrev S_ : Shape := ⟨0, ![]⟩

class Facts : Prop where
  bcast_S_S1x2 : S_.BroadcastsInDim S1x2 (![] : Fin 0 → Fin S1x2.rank)
  reducesTo_S1x2_S_d0_1 : S1x2.ReducesTo [0, 1] S_
  h_S_ : 0 < S_.numel
  bcast_S_S5x8 : S_.BroadcastsInDim S5x8 (![] : Fin 0 → Fin S5x8.rank)
  reducesTo_S5x8_S_d0_1 : S5x8.ReducesTo [0, 1] S_
  bcast_S_S200000x8 : S_.BroadcastsInDim S200000x8 (![] : Fin 0 → Fin S200000x8.rank)
  reducesTo_S200000x8_S_d0_1 : S200000x8.ReducesTo [0, 1] S_
  bcast_S_S1x1x128 : S_.BroadcastsInDim S1x1x128 (![] : Fin 0 → Fin S1x1x128.rank)
  reducesTo_S1x1x128_S_d0_1_2 : S1x1x128.ReducesTo [0, 1, 2] S_
  bcast_S_S128x2 : S_.BroadcastsInDim S128x2 (![] : Fin 0 → Fin S128x2.rank)
  reducesTo_S128x2_S_d0_1 : S128x2.ReducesTo [0, 1] S_
  bcast_S_S128 : S_.BroadcastsInDim S128 (![] : Fin 0 → Fin S128.rank)
  reducesTo_S128_S_d0 : S128.ReducesTo [0] S_
  bcast_S_S128x8 : S_.BroadcastsInDim S128x8 (![] : Fin 0 → Fin S128x8.rank)
  reducesTo_S128x8_S_d0_1 : S128x8.ReducesTo [0, 1] S_
  bcast_S_S128x128 : S_.BroadcastsInDim S128x128 (![] : Fin 0 → Fin S128x128.rank)
  reducesTo_S128x128_S_d0_1 : S128x128.ReducesTo [0, 1] S_
  bcast_S_S128x640 : S_.BroadcastsInDim S128x640 (![] : Fin 0 → Fin S128x640.rank)
  reducesTo_S128x640_S_d0_1 : S128x640.ReducesTo [0, 1] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S3x128 : S_.BroadcastsInDim S3x128 (![] : Fin 0 → Fin S3x128.rank)
  reducesTo_S3x128_S_d0_1 : S3x128.ReducesTo [0, 1] S_
  bcast_S_S3 : S_.BroadcastsInDim S3 (![] : Fin 0 → Fin S3.rank)
  reducesTo_S3_S_d0 : S3.ReducesTo [0] S_
  bcast_S_S9x128 : S_.BroadcastsInDim S9x128 (![] : Fin 0 → Fin S9x128.rank)
  reducesTo_S9x128_S_d0_1 : S9x128.ReducesTo [0, 1] S_
  bcast_S_S9 : S_.BroadcastsInDim S9 (![] : Fin 0 → Fin S9.rank)
  reducesTo_S9_S_d0 : S9.ReducesTo [0] S_

variable [Facts]

def fn_part9 {F : FTy → Type} [FloatOps F] (main_arg31 : FVec F S128x128 .f32) (main_arg32 : FVec F S128 .f32) (main_v153 : IVec S_ 1) : IVec S_ 1 :=
  let main_v154 : FVec F S128x128 .f32 := Host.absf main_arg31
  let main_cst_60 : FVec F S_ .f32 := constant S_ .f32 0x7F800000#32
  let main_v155 : FVec F S128x128 .f32 := broadcastInDim S128x128 ![] bcast_S_S128x128 main_cst_60
  let main_v156 : IVec S128x128 1 := cmpf .olt main_v154 main_v155
  let main_c_61 : IVec S_ 1 := constantI S_ 1 1#1
  let main_v157 : IVec S_ 1 := (fun x v => Host.reduce IntOp.andi x v reducesTo_S128x128_S_d0_1 h_S_) main_v156 main_c_61
  let main_v158 : IVec S_ 1 := andi main_v153 main_v157
  let main_v159 : FVec F S128 .f32 := Host.absf main_arg32
  let main_cst_62 : FVec F S_ .f32 := constant S_ .f32 0x7F800000#32
  let main_v160 : FVec F S128 .f32 := broadcastInDim S128 ![] bcast_S_S128 main_cst_62
  let main_v161 : IVec S128 1 := cmpf .olt main_v159 main_v160
  let main_c_63 : IVec S_ 1 := constantI S_ 1 1#1
  let main_v162 : IVec S_ 1 := (fun x v => Host.reduce IntOp.andi x v reducesTo_S128_S_d0 h_S_) main_v161 main_c_63
  let main_v163 : IVec S_ 1 := andi main_v158 main_v162
  main_v163

def fn_part8 {F : FTy → Type} [FloatOps F] (main_arg28 : FVec F S9 .f32) (main_arg29 : FVec F S9x128 .f32) (main_arg30 : FVec F S9 .f32) (main_arg31 : FVec F S128x128 .f32) (main_arg32 : FVec F S128 .f32) (main_v133 : IVec S_ 1) (main_v136 : IVec S9x128 1) : IVec S_ 1 :=
  let main_c_53 : IVec S_ 1 := constantI S_ 1 1#1
  let main_v137 : IVec S_ 1 := (fun x v => Host.reduce IntOp.andi x v reducesTo_S9x128_S_d0_1 h_S_) main_v136 main_c_53
  let main_v138 : IVec S_ 1 := andi main_v133 main_v137
  let main_v139 : FVec F S9 .f32 := Host.absf main_arg28
  let main_cst_54 : FVec F S_ .f32 := constant S_ .f32 0x7F800000#32
  let main_v140 : FVec F S9 .f32 := broadcastInDim S9 ![] bcast_S_S9 main_cst_54
  let main_v141 : IVec S9 1 := cmpf .olt main_v139 main_v140
  let main_c_55 : IVec S_ 1 := constantI S_ 1 1#1
  let main_v142 : IVec S_ 1 := (fun x v => Host.reduce IntOp.andi x v reducesTo_S9_S_d0 h_S_) main_v141 main_c_55
  let main_v143 : IVec S_ 1 := andi main_v138 main_v142
  let main_v144 : FVec F S9x128 .f32 := Host.absf main_arg29
  let main_cst_56 : FVec F S_ .f32 := constant S_ .f32 0x7F800000#32
  let main_v145 : FVec F S9x128 .f32 := broadcastInDim S9x128 ![] bcast_S_S9x128 main_cst_56
  let main_v146 : IVec S9x128 1 := cmpf .olt main_v144 main_v145
  let main_c_57 : IVec S_ 1 := constantI S_ 1 1#1
  let main_v147 : IVec S_ 1 := (fun x v => Host.reduce IntOp.andi x v reducesTo_S9x128_S_d0_1 h_S_) main_v146 main_c_57
  let main_v148 : IVec S_ 1 := andi main_v143 main_v147
  let main_v149 : FVec F S9 .f32 := Host.absf main_arg30
  let main_cst_58 : FVec F S_ .f32 := constant S_ .f32 0x7F800000#32
  let main_v150 : FVec F S9 .f32 := broadcastInDim S9 ![] bcast_S_S9 main_cst_58
  let main_v151 : IVec S9 1 := cmpf .olt main_v149 main_v150
  let main_c_59 : IVec S_ 1 := constantI S_ 1 1#1
  let main_v152 : IVec S_ 1 := (fun x v => Host.reduce IntOp.andi x v reducesTo_S9_S_d0 h_S_) main_v151 main_c_59
  let main_v153 : IVec S_ 1 := andi main_v148 main_v152
  fn_part9 (F := F) main_arg31 main_arg32 main_v153

def fn_part7 {F : FTy → Type} [FloatOps F] (main_arg25 : FVec F S3x128 .f32) (main_arg26 : FVec F S3 .f32) (main_arg27 : FVec F S9x128 .f32) (main_arg28 : FVec F S9 .f32) (main_arg29 : FVec F S9x128 .f32) (main_arg30 : FVec F S9 .f32) (main_arg31 : FVec F S128x128 .f32) (main_arg32 : FVec F S128 .f32) (main_v118 : IVec S_ 1) (main_v119 : FVec F S512 .f32) : IVec S_ 1 :=
  let main_cst_46 : FVec F S_ .f32 := constant S_ .f32 0x7F800000#32
  let main_v120 : FVec F S512 .f32 := broadcastInDim S512 ![] bcast_S_S512 main_cst_46
  let main_v121 : IVec S512 1 := cmpf .olt main_v119 main_v120
  let main_c_47 : IVec S_ 1 := constantI S_ 1 1#1
  let main_v122 : IVec S_ 1 := (fun x v => Host.reduce IntOp.andi x v reducesTo_S512_S_d0 h_S_) main_v121 main_c_47
  let main_v123 : IVec S_ 1 := andi main_v118 main_v122
  let main_v124 : FVec F S3x128 .f32 := Host.absf main_arg25
  let main_cst_48 : FVec F S_ .f32 := constant S_ .f32 0x7F800000#32
  let main_v125 : FVec F S3x128 .f32 := broadcastInDim S3x128 ![] bcast_S_S3x128 main_cst_48
  let main_v126 : IVec S3x128 1 := cmpf .olt main_v124 main_v125
  let main_c_49 : IVec S_ 1 := constantI S_ 1 1#1
  let main_v127 : IVec S_ 1 := (fun x v => Host.reduce IntOp.andi x v reducesTo_S3x128_S_d0_1 h_S_) main_v126 main_c_49
  let main_v128 : IVec S_ 1 := andi main_v123 main_v127
  let main_v129 : FVec F S3 .f32 := Host.absf main_arg26
  let main_cst_50 : FVec F S_ .f32 := constant S_ .f32 0x7F800000#32
  let main_v130 : FVec F S3 .f32 := broadcastInDim S3 ![] bcast_S_S3 main_cst_50
  let main_v131 : IVec S3 1 := cmpf .olt main_v129 main_v130
  let main_c_51 : IVec S_ 1 := constantI S_ 1 1#1
  let main_v132 : IVec S_ 1 := (fun x v => Host.reduce IntOp.andi x v reducesTo_S3_S_d0 h_S_) main_v131 main_c_51
  let main_v133 : IVec S_ 1 := andi main_v128 main_v132
  let main_v134 : FVec F S9x128 .f32 := Host.absf main_arg27
  let main_cst_52 : FVec F S_ .f32 := constant S_ .f32 0x7F800000#32
  let main_v135 : FVec F S9x128 .f32 := broadcastInDim S9x128 ![] bcast_S_S9x128 main_cst_52
  let main_v136 : IVec S9x128 1 := cmpf .olt main_v134 main_v135
  fn_part8 (F := F) main_arg28 main_arg29 main_arg30 main_arg31 main_arg32 main_v133 main_v136

def fn_part6 {F : FTy → Type} [FloatOps F] (main_arg21 : FVec F S512x128 .f32) (main_arg22 : FVec F S512 .f32) (main_arg23 : FVec F S512x128 .f32) (main_arg24 : FVec F S512 .f32) (main_arg25 : FVec F S3x128 .f32) (main_arg26 : FVec F S3 .f32) (main_arg27 : FVec F S9x128 .f32) (main_arg28 : FVec F S9 .f32) (main_arg29 : FVec F S9x128 .f32) (main_arg30 : FVec F S9 .f32) (main_arg31 : FVec F S128x128 .f32) (main_arg32 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S512x128 .f32 := Host.absf main_arg21
  let main_cst_40 : FVec F S_ .f32 := constant S_ .f32 0x7F800000#32
  let main_v105 : FVec F S512x128 .f32 := broadcastInDim S512x128 ![] bcast_S_S512x128 main_cst_40
  let main_v106 : IVec S512x128 1 := cmpf .olt main_v104 main_v105
  let main_c_41 : IVec S_ 1 := constantI S_ 1 1#1
  let main_v107 : IVec S_ 1 := (fun x v => Host.reduce IntOp.andi x v reducesTo_S512x128_S_d0_1 h_S_) main_v106 main_c_41
  let main_v108 : IVec S_ 1 := andi main_v103 main_v107
  let main_v109 : FVec F S512 .f32 := Host.absf main_arg22
  let main_cst_42 : FVec F S_ .f32 := constant S_ .f32 0x7F800000#32
  let main_v110 : FVec F S512 .f32 := broadcastInDim S512 ![] bcast_S_S512 main_cst_42
  let main_v111 : IVec S512 1 := cmpf .olt main_v109 main_v110
  let main_c_43 : IVec S_ 1 := constantI S_ 1 1#1
  let main_v112 : IVec S_ 1 := (fun x v => Host.reduce IntOp.andi x v reducesTo_S512_S_d0 h_S_) main_v111 main_c_43
  let main_v113 : IVec S_ 1 := andi main_v108 main_v112
  let main_v114 : FVec F S512x128 .f32 := Host.absf main_arg23
  let main_cst_44 : FVec F S_ .f32 := constant S_ .f32 0x7F800000#32
  let main_v115 : FVec F S512x128 .f32 := broadcastInDim S512x128 ![] bcast_S_S512x128 main_cst_44
  let main_v116 : IVec S512x128 1 := cmpf .olt main_v114 main_v115
  let main_c_45 : IVec S_ 1 := constantI S_ 1 1#1
  let main_v117 : IVec S_ 1 := (fun x v => Host.reduce IntOp.andi x v reducesTo_S512x128_S_d0_1 h_S_) main_v116 main_c_45
  let main_v118 : IVec S_ 1 := andi main_v113 main_v117
  let main_v119 : FVec F S512 .f32 := Host.absf main_arg24
  fn_part7 (F := F) main_arg25 main_arg26 main_arg27 main_arg28 main_arg29 main_arg30 main_arg31 main_arg32 main_v118 main_v119

def fn_part5 {F : FTy → Type} [FloatOps F] (main_arg18 : FVec F S128 .f32) (main_arg19 : FVec F S128x640 .f32) (main_arg20 : FVec F S128 .f32) (main_arg21 : FVec F S512x128 .f32) (main_arg22 : FVec F S512 .f32) (main_arg23 : FVec F S512x128 .f32) (main_arg24 : FVec F S512 .f32) (main_arg25 : FVec F S3x128 .f32) (main_arg26 : FVec F S3 .f32) (main_arg27 : FVec F S9x128 .f32) (main_arg28 : FVec F S9 .f32) (main_arg29 : FVec F S9x128 .f32) (main_arg30 : FVec F S9 .f32) (main_arg31 : FVec F S128x128 .f32) (main_arg32 : FVec F S128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x640 .f32 := Host.absf main_arg19
  let main_cst_36 : FVec F S_ .f32 := constant S_ .f32 0x7F800000#32
  let main_v95 : FVec F S128x640 .f32 := broadcastInDim S128x640 ![] bcast_S_S128x640 main_cst_36
  let main_v96 : IVec S128x640 1 := cmpf .olt main_v94 main_v95
  let main_c_37 : IVec S_ 1 := constantI S_ 1 1#1
  let main_v97 : IVec S_ 1 := (fun x v => Host.reduce IntOp.andi x v reducesTo_S128x640_S_d0_1 h_S_) main_v96 main_c_37
  let main_v98 : IVec S_ 1 := andi main_v93 main_v97
  let main_v99 : FVec F S128 .f32 := Host.absf main_arg20
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_arg31 main_arg32 main_v98 main_v101 main_c_39

def fn_part4 {F : FTy → Type} [FloatOps F] (main_arg14 : FVec F S128 .f32) (main_arg15 : FVec F S128x128 .f32) (main_arg16 : FVec F S128 .f32) (main_arg17 : FVec F S128x128 .f32) (main_arg18 : FVec F S128 .f32) (main_arg19 : FVec F S128x640 .f32) (main_arg20 : FVec F S128 .f32) (main_arg21 : FVec F S512x128 .f32) (main_arg22 : FVec F S512 .f32) (main_arg23 : FVec F S512x128 .f32) (main_arg24 : FVec F S512 .f32) (main_arg25 : FVec F S3x128 .f32) (main_arg26 : FVec F S3 .f32) (main_arg27 : FVec F S9x128 .f32) (main_arg28 : FVec F S9 .f32) (main_arg29 : FVec F S9x128 .f32) (main_arg30 : FVec F S9 .f32) (main_arg31 : FVec F S128x128 .f32) (main_arg32 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg15
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_arg31 main_arg32 main_v83 main_v84 main_cst_32

def fn_part3 {F : FTy → Type} [FloatOps F] (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x640 .f32) (main_arg20 : FVec F S128 .f32) (main_arg21 : FVec F S512x128 .f32) (main_arg22 : FVec F S512 .f32) (main_arg23 : FVec F S512x128 .f32) (main_arg24 : FVec F S512 .f32) (main_arg25 : FVec F S3x128 .f32) (main_arg26 : FVec F S3 .f32) (main_arg27 : FVec F S9x128 .f32) (main_arg28 : FVec F S9 .f32) (main_arg29 : FVec F S9x128 .f32) (main_arg30 : FVec F S9 .f32) (main_arg31 : FVec F S128x128 .f32) (main_arg32 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_arg31 main_arg32 main_v63 main_v67

def fn_part2 {F : FTy → Type} [FloatOps F] (main_arg7 : FVec F S128x2 .f32) (main_arg8 : FVec F S128 .f32) (main_arg9 : FVec F S128x8 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x640 .f32) (main_arg20 : FVec F S128 .f32) (main_arg21 : FVec F S512x128 .f32) (main_arg22 : FVec F S512 .f32) (main_arg23 : FVec F S512x128 .f32) (main_arg24 : FVec F S512 .f32) (main_arg25 : FVec F S3x128 .f32) (main_arg26 : FVec F S3 .f32) (main_arg27 : FVec F S9x128 .f32) (main_arg28 : FVec F S9 .f32) (main_arg29 : FVec F S9x128 .f32) (main_arg30 : FVec F S9 .f32) (main_arg31 : FVec F S128x128 .f32) (main_arg32 : FVec F S128 .f32) (main_v33 : IVec S_ 1) : IVec S_ 1 :=
  let main_v34 : FVec F S128x2 .f32 := Host.absf main_arg7
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x8 .f32 := Host.absf main_arg9
  let main_cst_16 : FVec F S_ .f32 := constant S_ .f32 0x7F800000#32
  let main_v45 : FVec F S128x8 .f32 := broadcastInDim S128x8 ![] bcast_S_S128x8 main_cst_16
  let main_v46 : IVec S128x8 1 := cmpf .olt main_v44 main_v45
  let main_c_17 : IVec S_ 1 := constantI S_ 1 1#1
  let main_v47 : IVec S_ 1 := (fun x v => Host.reduce IntOp.andi x v reducesTo_S128x8_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_v48 main_v49 main_v50

def fn_part1 {F : FTy → Type} [FloatOps F] (main_arg4 : FVec F S200000x8 .f32) (main_arg5 : FVec F S1x1x128 .f32) (main_arg6 : FVec F S1x1x128 .f32) (main_arg7 : FVec F S128x2 .f32) (main_arg8 : FVec F S128 .f32) (main_arg9 : FVec F S128x8 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x640 .f32) (main_arg20 : FVec F S128 .f32) (main_arg21 : FVec F S512x128 .f32) (main_arg22 : FVec F S512 .f32) (main_arg23 : FVec F S512x128 .f32) (main_arg24 : FVec F S512 .f32) (main_arg25 : FVec F S3x128 .f32) (main_arg26 : FVec F S3 .f32) (main_arg27 : FVec F S9x128 .f32) (main_arg28 : FVec F S9 .f32) (main_arg29 : FVec F S9x128 .f32) (main_arg30 : FVec F S9 .f32) (main_arg31 : FVec F S128x128 .f32) (main_arg32 : FVec F S128 .f32) (main_v13 : IVec S_ 1) (main_v16 : IVec S200000x8 1) : IVec S_ 1 :=
  let main_c_5 : IVec S_ 1 := constantI S_ 1 1#1
  let main_v17 : IVec S_ 1 := (fun x v => Host.reduce IntOp.andi x v reducesTo_S200000x8_S_d0_1 h_S_) main_v16 main_c_5
  let main_v18 : IVec S_ 1 := andi main_v13 main_v17
  let main_v19 : FVec F S200000x8 .f32 := Host.absf main_arg4
  let main_cst_6 : FVec F S_ .f32 := constant S_ .f32 0x7F800000#32
  let main_v20 : FVec F S200000x8 .f32 := broadcastInDim S200000x8 ![] bcast_S_S200000x8 main_cst_6
  let main_v21 : IVec S200000x8 1 := cmpf .olt main_v19 main_v20
  let main_c_7 : IVec S_ 1 := constantI S_ 1 1#1
  let main_v22 : IVec S_ 1 := (fun x v => Host.reduce IntOp.andi x v reducesTo_S200000x8_S_d0_1 h_S_) main_v21 main_c_7
  let main_v23 : IVec S_ 1 := andi main_v18 main_v22
  let main_v24 : FVec F S1x1x128 .f32 := Host.absf main_arg5
  let main_cst_8 : FVec F S_ .f32 := constant S_ .f32 0x7F800000#32
  let main_v25 : FVec F S1x1x128 .f32 := broadcastInDim S1x1x128 ![] bcast_S_S1x1x128 main_cst_8
  let main_v26 : IVec S1x1x128 1 := cmpf .olt main_v24 main_v25
  let main_c_9 : IVec S_ 1 := constantI S_ 1 1#1
  let main_v27 : IVec S_ 1 := (fun x v => Host.reduce IntOp.andi x v reducesTo_S1x1x128_S_d0_1_2 h_S_) main_v26 main_c_9
  let main_v28 : IVec S_ 1 := andi main_v23 main_v27
  let main_v29 : FVec F S1x1x128 .f32 := Host.absf main_arg6
  let main_cst_10 : FVec F S_ .f32 := constant S_ .f32 0x7F800000#32
  let main_v30 : FVec F S1x1x128 .f32 := broadcastInDim S1x1x128 ![] bcast_S_S1x1x128 main_cst_10
  let main_v31 : IVec S1x1x128 1 := cmpf .olt main_v29 main_v30
  let main_c_11 : IVec S_ 1 := constantI S_ 1 1#1
  let main_v32 : IVec S_ 1 := (fun x v => Host.reduce IntOp.andi x v reducesTo_S1x1x128_S_d0_1_2 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_v33

def fn {F : FTy → Type} [FloatOps F] (main_arg0 : FVec F S1x2 .f32) (main_arg1 : FVec F S5x8 .f32) (main_arg2 : FVec F S5x8 .f32) (main_arg3 : FVec F S200000x8 .f32) (main_arg4 : FVec F S200000x8 .f32) (main_arg5 : FVec F S1x1x128 .f32) (main_arg6 : FVec F S1x1x128 .f32) (main_arg7 : FVec F S128x2 .f32) (main_arg8 : FVec F S128 .f32) (main_arg9 : FVec F S128x8 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x640 .f32) (main_arg20 : FVec F S128 .f32) (main_arg21 : FVec F S512x128 .f32) (main_arg22 : FVec F S512 .f32) (main_arg23 : FVec F S512x128 .f32) (main_arg24 : FVec F S512 .f32) (main_arg25 : FVec F S3x128 .f32) (main_arg26 : FVec F S3 .f32) (main_arg27 : FVec F S9x128 .f32) (main_arg28 : FVec F S9 .f32) (main_arg29 : FVec F S9x128 .f32) (main_arg30 : FVec F S9 .f32) (main_arg31 : FVec F S128x128 .f32) (main_arg32 : FVec F S128 .f32) : IVec S_ 1 :=
  let main_v0 : FVec F S1x2 .f32 := Host.absf main_arg0
  let main_cst : FVec F S_ .f32 := constant S_ .f32 0x7F800000#32
  let main_v1 : FVec F S1x2 .f32 := broadcastInDim S1x2 ![] bcast_S_S1x2 main_cst
  let main_v2 : IVec S1x2 1 := cmpf .olt main_v0 main_v1
  let main_c : IVec S_ 1 := constantI S_ 1 1#1
  let main_v3 : IVec S_ 1 := (fun x v => Host.reduce IntOp.andi x v reducesTo_S1x2_S_d0_1 h_S_) main_v2 main_c
  let main_v4 : FVec F S5x8 .f32 := Host.absf main_arg1
  let main_cst_0 : FVec F S_ .f32 := constant S_ .f32 0x7F800000#32
  let main_v5 : FVec F S5x8 .f32 := broadcastInDim S5x8 ![] bcast_S_S5x8 main_cst_0
  let main_v6 : IVec S5x8 1 := cmpf .olt main_v4 main_v5
  let main_c_1 : IVec S_ 1 := constantI S_ 1 1#1
  let main_v7 : IVec S_ 1 := (fun x v => Host.reduce IntOp.andi x v reducesTo_S5x8_S_d0_1 h_S_) main_v6 main_c_1
  let main_v8 : IVec S_ 1 := andi main_v3 main_v7
  let main_v9 : FVec F S5x8 .f32 := Host.absf main_arg2
  let main_cst_2 : FVec F S_ .f32 := constant S_ .f32 0x7F800000#32
  let main_v10 : FVec F S5x8 .f32 := broadcastInDim S5x8 ![] bcast_S_S5x8 main_cst_2
  let main_v11 : IVec S5x8 1 := cmpf .olt main_v9 main_v10
  let main_c_3 : IVec S_ 1 := constantI S_ 1 1#1
  let main_v12 : IVec S_ 1 := (fun x v => Host.reduce IntOp.andi x v reducesTo_S5x8_S_d0_1 h_S_) main_v11 main_c_3
  let main_v13 : IVec S_ 1 := andi main_v8 main_v12
  let main_v14 : FVec F S200000x8 .f32 := Host.absf main_arg3
  let main_cst_4 : FVec F S_ .f32 := constant S_ .f32 0x7F800000#32
  let main_v15 : FVec F S200000x8 .f32 := broadcastInDim S200000x8 ![] bcast_S_S200000x8 main_cst_4
  let main_v16 : IVec S200000x8 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_v13 main_v16
-- ==== Kernel.lean ====
abbrev S1x2 : Shape := ⟨2, ![1, 2]⟩
abbrev S5x8 : Shape := ⟨2, ![5, 8]⟩
abbrev S200000x8 : Shape := ⟨2, ![200000, 8]⟩
abbrev S1x1x128 : Shape := ⟨3, ![1, 1, 128]⟩
abbrev S128x2 : Shape := ⟨2, ![128, 2]⟩
abbrev S128 : Shape := ⟨1, ![128]⟩
abbrev S128x8 : Shape := ⟨2, ![128, 8]⟩
abbrev S128x128 : Shape := ⟨2, ![128, 128]⟩
abbrev S128x640 : Shape := ⟨2, ![128, 640]⟩
abbrev S512x128 : Shape := ⟨2, ![512, 128]⟩
abbrev S512 : Shape := ⟨1, ![512]⟩
abbrev S3x128 : Shape := ⟨2, ![3, 128]⟩
abbrev S3 : Shape := ⟨1, ![3]⟩
abbrev S9x128 : Shape := ⟨2, ![9, 128]⟩
abbrev S9 : Shape := ⟨1, ![9]⟩
abbrev S2x128 : Shape := ⟨2, ![2, 128]⟩
abbrev S1x128 : Shape := ⟨2, ![1, 128]⟩
abbrev S_ : Shape := ⟨0, ![]⟩
abbrev S8x128 : Shape := ⟨2, ![8, 128]⟩
abbrev S5x128 : Shape := ⟨2, ![5, 128]⟩
abbrev S4800x8 : Shape := ⟨2, ![4800, 8]⟩
abbrev S204800x8 : Shape := ⟨2, ![204800, 8]⟩
abbrev S1x204800x8 : Shape := ⟨3, ![1, 204800, 8]⟩
abbrev S2x204800x8 : Shape := ⟨3, ![2, 204800, 8]⟩
abbrev S1x128x128 : Shape := ⟨3, ![1, 128, 128]⟩
abbrev S2x128x128 : Shape := ⟨3, ![2, 128, 128]⟩
abbrev S2x1x128 : Shape := ⟨3, ![2, 1, 128]⟩
abbrev S1x8192x8 : Shape := ⟨3, ![1, 8192, 8]⟩
abbrev S8192x8 : Shape := ⟨2, ![8192, 8]⟩
abbrev S8192x128 : Shape := ⟨2, ![8192, 128]⟩
abbrev S1x640 : Shape := ⟨2, ![1, 640]⟩
abbrev S640x128 : Shape := ⟨2, ![640, 128]⟩
abbrev S128x512 : Shape := ⟨2, ![128, 512]⟩
abbrev S1x512 : Shape := ⟨2, ![1, 512]⟩
abbrev S1 : Shape := ⟨1, ![1]⟩
abbrev S1x1 : Shape := ⟨2, ![1, 1]⟩
abbrev S2x1x204800 : Shape := ⟨3, ![2, 1, 204800]⟩
abbrev S1x1x8192 : Shape := ⟨3, ![1, 1, 8192]⟩
abbrev S1x8192 : Shape := ⟨2, ![1, 8192]⟩
abbrev S1x1x200000 : Shape := ⟨3, ![1, 1, 200000]⟩
abbrev S1x200000 : Shape := ⟨2, ![1, 200000]⟩
abbrev S128x5 : Shape := ⟨2, ![128, 5]⟩
abbrev S1x5 : Shape := ⟨2, ![1, 5]⟩
abbrev S1x400010 : Shape := ⟨2, ![1, 400010]⟩
abbrev S128x3 : Shape := ⟨2, ![128, 3]⟩
abbrev S1x3 : Shape := ⟨2, ![1, 3]⟩
abbrev S128x9 : Shape := ⟨2, ![128, 9]⟩
abbrev S1x9 : Shape := ⟨2, ![1, 9]⟩

abbrev nBuf : Space → Nat
  | .hbm => 253
  | .vmem => 18
  | .smem => 0
  | _ => 0

abbrev hbmTy0_0 (i : Nat) : BufTy := match i % 128 with
  | 0 => ⟨S1x2, .f32⟩
  | 1 => ⟨S5x8, .f32⟩
  | 2 => ⟨S5x8, .f32⟩
  | 3 => ⟨S200000x8, .f32⟩
  | 4 => ⟨S200000x8, .f32⟩
  | 5 => ⟨S1x1x128, .f32⟩
  | 6 => ⟨S1x1x128, .f32⟩
  | 7 => ⟨S128x2, .f32⟩
  | 8 => ⟨S128, .f32⟩
  | 9 => ⟨S128x8, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128x128, .f32⟩
  | 18 => ⟨S128, .f32⟩
  | 19 => ⟨S128x640, .f32⟩
  | 20 => ⟨S128, .f32⟩
  | 21 => ⟨S512x128, .f32⟩
  | 22 => ⟨S512, .f32⟩
  | 23 => ⟨S512x128, .f32⟩
  | 24 => ⟨S512, .f32⟩
  | 25 => ⟨S3x128, .f32⟩
  | 26 => ⟨S3, .f32⟩
  | 27 => ⟨S9x128, .f32⟩
  | 28 => ⟨S9, .f32⟩
  | 29 => ⟨S9x128, .f32⟩
  | 30 => ⟨S9, .f32⟩
  | 31 => ⟨S128x128, .f32⟩
  | 32 => ⟨S128, .f32⟩
  | 33 => ⟨S2x128, .f32⟩
  | 34 => ⟨S1x128, .f32⟩
  | 35 => ⟨S1x128, .f32⟩
  | 36 => ⟨S1x128, .f32⟩
  | 37 => ⟨S_, .f32⟩
  | 38 => ⟨S1x128, .f32⟩
  | 39 => ⟨S1x128, .f32⟩
  | 40 => ⟨S8x128, .f32⟩
  | 41 => ⟨S5x128, .f32⟩
  | 42 => ⟨S1x128, .f32⟩
  | 43 => ⟨S5x128, .f32⟩
  | 44 => ⟨S5x128, .f32⟩
  | 45 => ⟨S_, .f32⟩
  | 46 => ⟨S5x128, .f32⟩
  | 47 => ⟨S5x128, .f32⟩
  | 48 => ⟨S128x128, .f32⟩
  | 49 => ⟨S5x128, .f32⟩
  | 50 => ⟨S1x128, .f32⟩
  | 51 => ⟨S5x128, .f32⟩
  | 52 => ⟨S5x128, .f32⟩
  | 53 => ⟨S_, .f32⟩
  | 54 => ⟨S128, .f32⟩
  | 55 => ⟨S1x128, .f32⟩
  | 56 => ⟨S8x128, .f32⟩
  | 57 => ⟨S5x128, .f32⟩
  | 58 => ⟨S1x128, .f32⟩
  | 59 => ⟨S5x128, .f32⟩
  | 60 => ⟨S5x128, .f32⟩
  | 61 => ⟨S_, .f32⟩
  | 62 => ⟨S5x128, .f32⟩
  | 63 => ⟨S5x128, .f32⟩
  | 64 => ⟨S128x128, .f32⟩
  | 65 => ⟨S5x128, .f32⟩
  | 66 => ⟨S1x128, .f32⟩
  | 67 => ⟨S5x128, .f32⟩
  | 68 => ⟨S5x128, .f32⟩
  | 69 => ⟨S_, .f32⟩
  | 70 => ⟨S128, .f32⟩
  | 71 => ⟨S1x128, .f32⟩
  | 72 => ⟨S4800x8, .f32⟩
  | 73 => ⟨S204800x8, .f32⟩
  | 74 => ⟨S4800x8, .f32⟩
  | 75 => ⟨S204800x8, .f32⟩
  | 76 => ⟨S204800x8, .bf16⟩
  | 77 => ⟨S204800x8, .bf16⟩
  | 78 => ⟨S1x204800x8, .bf16⟩
  | 79 => ⟨S1x204800x8, .bf16⟩
  | 80 => ⟨S2x204800x8, .bf16⟩
  | 81 => ⟨S128x8, .bf16⟩
  | 82 => ⟨S1x128, .f32⟩
  | 83 => ⟨S1x128x128, .f32⟩
  | 84 => ⟨S1x128x128, .f32⟩
  | 85 => ⟨S2x128x128, .f32⟩
  | 86 => ⟨S2x128x128, .bf16⟩
  | 87 => ⟨S1x128, .f32⟩
  | 88 => ⟨S1x128, .f32⟩
  | 89 => ⟨S1x1x128, .f32⟩
  | 90 => ⟨S1x1x128, .f32⟩
  | 91 => ⟨S2x1x128, .f32⟩
  | 92 => ⟨S2x1x128, .f32⟩
  | 93 => ⟨S1x1x128, .f32⟩
  | 94 => ⟨S1x128, .f32⟩
  | 95 => ⟨S1x1x128, .f32⟩
  | 96 => ⟨S1x128, .f32⟩
  | 97 => ⟨S1x640, .f32⟩
  | 98 => ⟨S640x128, .f32⟩
  | 99 => ⟨S1x128, .f32⟩
  | 100 => ⟨S1x128, .f32⟩
  | 101 => ⟨S1x128, .f32⟩
  | 102 => ⟨S_, .f32⟩
  | 103 => ⟨S1x128, .f32⟩
  | 104 => ⟨S1x128, .f32⟩
  | 105 => ⟨S1x128, .f32⟩
  | 106 => ⟨S1x128, .f32⟩
  | 107 => ⟨S128x512, .f32⟩
  | 108 => ⟨S1x512, .f32⟩
  | 109 => ⟨S1x512, .f32⟩
  | 110 => ⟨S1x512, .f32⟩
  | 111 => ⟨S128x512, .f32⟩
  | 112 => ⟨S1x512, .f32⟩
  | 113 => ⟨S1x512, .f32⟩
  | 114 => ⟨S1x512, .f32⟩
  | 115 => ⟨S1x512, .f32⟩
  | 116 => ⟨S1x128, .f32⟩
  | 117 => ⟨S1x128, .f32⟩
  | 118 => ⟨S1x128, .f32⟩
  | 119 => ⟨S1x128, .f32⟩
  | 120 => ⟨S1x128, .f32⟩
  | 121 => ⟨S1x128, .f32⟩
  | 122 => ⟨S_, .f32⟩
  | 123 => ⟨S1x128, .f32⟩
  | 124 => ⟨S1x128, .f32⟩
  | 125 => ⟨S_, .f32⟩
  | 126 => ⟨S1x128, .f32⟩
  | 127 => ⟨S1x128, .f32⟩
  | _ => ⟨S1x2, .f32⟩

abbrev hbmTy0_1 (i : Nat) : BufTy := match i % 128 with
  | 0 => ⟨S1x128, .f32⟩
  | 1 => ⟨S1x128, .f32⟩
  | 2 => ⟨S1x128, .f32⟩
  | 3 => ⟨S_, .f32⟩
  | 4 => ⟨S1x128, .f32⟩
  | 5 => ⟨S1x128, .f32⟩
  | 6 => ⟨S_, .f32⟩
  | 7 => ⟨S1x128, .f32⟩
  | 8 => ⟨S1x128, .f32⟩
  | 9 => ⟨S1x128, .f32⟩
  | 10 => ⟨S1x128, .f32⟩
  | 11 => ⟨S1x128, .f32⟩
  | 12 => ⟨S1x128, .f32⟩
  | 13 => ⟨S1x128, .f32⟩
  | 14 => ⟨S_, .f32⟩
  | 15 => ⟨S1x128, .f32⟩
  | 16 => ⟨S1x128, .f32⟩
  | 17 => ⟨S_, .f32⟩
  | 18 => ⟨S1x128, .f32⟩
  | 19 => ⟨S1x128, .f32⟩
  | 20 => ⟨S1x128, .f32⟩
  | 21 => ⟨S1x128, .f32⟩
  | 22 => ⟨S128x128, .f32⟩
  | 23 => ⟨S1x128, .f32⟩
  | 24 => ⟨S1x128, .f32⟩
  | 25 => ⟨S1x128, .f32⟩
  | 26 => ⟨S1x128, .f32⟩
  | 27 => ⟨S1x128, .f32⟩
  | 28 => ⟨S1x128, .f32⟩
  | 29 => ⟨S1x128, .f32⟩
  | 30 => ⟨S_, .f32⟩
  | 31 => ⟨S1, .f32⟩
  | 32 => ⟨S1x1, .f32⟩
  | 33 => ⟨S1x128, .f32⟩
  | 34 => ⟨S1x128, .f32⟩
  | 35 => ⟨S_, .f32⟩
  | 36 => ⟨S1, .f32⟩
  | 37 => ⟨S1x1, .f32⟩
  | 38 => ⟨S1x1x128, .f32⟩
  | 39 => ⟨S1x1x128, .f32⟩
  | 40 => ⟨S2x1x128, .f32⟩
  | 41 => ⟨S2x1x204800, .f32⟩
  | 42 => ⟨S1x1x200000, .f32⟩
  | 43 => ⟨S1x200000, .f32⟩
  | 44 => ⟨S1x200000, .f32⟩
  | 45 => ⟨S1x200000, .f32⟩
  | 46 => ⟨S1x1x200000, .f32⟩
  | 47 => ⟨S1x200000, .f32⟩
  | 48 => ⟨S1x200000, .f32⟩
  | 49 => ⟨S1x200000, .f32⟩
  | 50 => ⟨S128x5, .f32⟩
  | 51 => ⟨S1x5, .f32⟩
  | 52 => ⟨S128x5, .f32⟩
  | 53 => ⟨S1x5, .f32⟩
  | 54 => ⟨S1x400010, .f32⟩
  | 55 => ⟨S_, .f32⟩
  | 56 => ⟨S1, .f32⟩
  | 57 => ⟨S_, .f32⟩
  | 58 => ⟨S1, .f32⟩
  | 59 => ⟨S1, .f32⟩
  | 60 => ⟨S1x1, .f32⟩
  | 61 => ⟨S1x400010, .f32⟩
  | 62 => ⟨S1x400010, .f32⟩
  | 63 => ⟨S1x400010, .f32⟩
  | 64 => ⟨S_, .f32⟩
  | 65 => ⟨S1, .f32⟩
  | 66 => ⟨S1x1, .f32⟩
  | 67 => ⟨S1x400010, .f32⟩
  | 68 => ⟨S1x400010, .f32⟩
  | 69 => ⟨S128x3, .f32⟩
  | 70 => ⟨S1x3, .f32⟩
  | 71 => ⟨S1x3, .f32⟩
  | 72 => ⟨S1x3, .f32⟩
  | 73 => ⟨S_, .f32⟩
  | 74 => ⟨S1, .f32⟩
  | 75 => ⟨S_, .f32⟩
  | 76 => ⟨S1, .f32⟩
  | 77 => ⟨S1, .f32⟩
  | 78 => ⟨S1x1, .f32⟩
  | 79 => ⟨S1x3, .f32⟩
  | 80 => ⟨S1x3, .f32⟩
  | 81 => ⟨S1x3, .f32⟩
  | 82 => ⟨S_, .f32⟩
  | 83 => ⟨S1, .f32⟩
  | 84 => ⟨S1x1, .f32⟩
  | 85 => ⟨S1x3, .f32⟩
  | 86 => ⟨S1x3, .f32⟩
  | 87 => ⟨S128x9, .f32⟩
  | 88 => ⟨S1x9, .f32⟩
  | 89 => ⟨S1x9, .f32⟩
  | 90 => ⟨S1x9, .f32⟩
  | 91 => ⟨S_, .f32⟩
  | 92 => ⟨S1, .f32⟩
  | 93 => ⟨S_, .f32⟩
  | 94 => ⟨S1, .f32⟩
  | 95 => ⟨S1, .f32⟩
  | 96 => ⟨S1x1, .f32⟩
  | 97 => ⟨S1x9, .f32⟩
  | 98 => ⟨S1x9, .f32⟩
  | 99 => ⟨S1x9, .f32⟩
  | 100 => ⟨S_, .f32⟩
  | 101 => ⟨S1, .f32⟩
  | 102 => ⟨S1x1, .f32⟩
  | 103 => ⟨S1x9, .f32⟩
  | 104 => ⟨S1x9, .f32⟩
  | 105 => ⟨S128x9, .f32⟩
  | 106 => ⟨S1x9, .f32⟩
  | 107 => ⟨S1x9, .f32⟩
  | 108 => ⟨S1x9, .f32⟩
  | 109 => ⟨S_, .f32⟩
  | 110 => ⟨S1, .f32⟩
  | 111 => ⟨S_, .f32⟩
  | 112 => ⟨S1, .f32⟩
  | 113 => ⟨S1, .f32⟩
  | 114 => ⟨S1x1, .f32⟩
  | 115 => ⟨S1x9, .f32⟩
  | 116 => ⟨S1x9, .f32⟩
  | 117 => ⟨S1x9, .f32⟩
  | 118 => ⟨S_, .f32⟩
  | 119 => ⟨S1, .f32⟩
  | 120 => ⟨S1x1, .f32⟩
  | 121 => ⟨S1x9, .f32⟩
  | 122 => ⟨S1x9, .f32⟩
  | 123 => ⟨S1x1x128, .f32⟩
  | 124 => ⟨S1x1x128, .f32⟩
  | _ => ⟨S1x2, .f32⟩

abbrev hbmTy (i : Nat) : BufTy := match i / 128 with
  | 0 => hbmTy0_0 i
  | 1 => hbmTy0_1 i
  | _ => ⟨S1x2, .f32⟩

abbrev bufTy : (tb : Table) → Fin (tcTables nBuf tb) → BufTy
  | .hbm, ⟨i, _⟩ => hbmTy i
  | .local _ .vmem, ⟨0, _⟩ => ⟨S1x8192x8, .bf16⟩
  | .local _ .vmem, ⟨1, _⟩ => ⟨S1x8192x8, .bf16⟩
  | .local _ .vmem, ⟨2, _⟩ => ⟨S128x8, .bf16⟩
  | .local _ .vmem, ⟨3, _⟩ => ⟨S1x128, .f32⟩
  | .local _ .vmem, ⟨4, _⟩ => ⟨S1x128x128, .bf16⟩
  | .local _ .vmem, ⟨5, _⟩ => ⟨S1x128x128, .bf16⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x8192x8, .bf16⟩
  | .local _ .vmem, ⟨11, _⟩ => ⟨S1x8192x8, .bf16⟩
  | .local _ .vmem, ⟨12, _⟩ => ⟨S128x8, .bf16⟩
  | .local _ .vmem, ⟨13, _⟩ => ⟨S1x128, .f32⟩
  | .local _ .vmem, ⟨14, _⟩ => ⟨S1x1x128, .f32⟩
  | .local _ .vmem, ⟨15, _⟩ => ⟨S1x1x128, .f32⟩
  | .local _ .vmem, ⟨16, _⟩ => ⟨S1x1x8192, .f32⟩
  | .local _ .vmem, ⟨17, _⟩ => ⟨S1x1x8192, .f32⟩
  | _, _ => ⟨S1x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_call0_cst : Ref sig .tc := ⟨.hbm, 37, rfl⟩
abbrev main_call0_v0 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_call1_cst : Ref sig .tc := ⟨.hbm, 45, rfl⟩
abbrev main_call1_v0 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_cst : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_call2_cst : Ref sig .tc := ⟨.hbm, 61, rfl⟩
abbrev main_call2_v0 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_cst_0 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_call3_cst : Ref sig .tc := ⟨.hbm, 102, rfl⟩
abbrev main_call3_v0 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_cst_1 : Ref sig .tc := ⟨.hbm, 122, rfl⟩
abbrev main_v79 : Ref sig .tc := ⟨.hbm, 123, rfl⟩
abbrev main_v80 : Ref sig .tc := ⟨.hbm, 124, rfl⟩
abbrev main_cst_2 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_cst_3 : Ref sig .tc := ⟨.hbm, 131, rfl⟩
abbrev main_v86 : Ref sig .tc := ⟨.hbm, 132, rfl⟩
abbrev main_v87 : Ref sig .tc := ⟨.hbm, 133, rfl⟩
abbrev main_cst_4 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_cst_5 : Ref sig .tc := ⟨.hbm, 142, rfl⟩
abbrev main_v95 : Ref sig .tc := ⟨.hbm, 143, rfl⟩
abbrev main_v96 : Ref sig .tc := ⟨.hbm, 144, rfl⟩
abbrev main_cst_6 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_cst_7 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_cst_8 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_cst_9 : Ref sig .tc := ⟨.hbm, 183, rfl⟩
abbrev main_v132 : Ref sig .tc := ⟨.hbm, 184, rfl⟩
abbrev main_cst_10 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_cst_11 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_cst_12 : Ref sig .tc := ⟨.hbm, 201, rfl⟩
abbrev main_v147 : Ref sig .tc := ⟨.hbm, 202, rfl⟩
abbrev main_cst_13 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_cst_14 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_cst_15 : Ref sig .tc := ⟨.hbm, 219, rfl⟩
abbrev main_v162 : Ref sig .tc := ⟨.hbm, 220, rfl⟩
abbrev main_cst_16 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_cst_17 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_cst_18 : Ref sig .tc := ⟨.hbm, 237, rfl⟩
abbrev main_v177 : Ref sig .tc := ⟨.hbm, 238, rfl⟩
abbrev main_cst_19 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_cst_20 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![2, 25], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x8 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x8 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![2, 25], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x8192x8 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S128x8 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x8192 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  transposes_S128x2_S2x128_1_0 : S128x2.Transposes [1, 0] S2x128
  bcast_S128_S1x128_1 : S128.BroadcastsInDim S1x128 (![1] : Fin 1 → Fin S1x128.rank)
  bcast_S_S1x128 : S_.BroadcastsInDim S1x128 (![] : Fin 0 → Fin S1x128.rank)
  transposes_S128x8_S8x128_1_0 : S128x8.Transposes [1, 0] S8x128
  bcast_S1x128_S5x128_0_1 : S1x128.BroadcastsInDim S5x128 (![0, 1] : Fin 2 → Fin S5x128.rank)
  bcast_S_S5x128 : S_.BroadcastsInDim S5x128 (![] : Fin 0 → Fin S5x128.rank)
  transposes_S128x128_S128x128_1_0 : S128x128.Transposes [1, 0] S128x128
  reducesTo_S5x128_S128_d0 : S5x128.ReducesTo [0] S128
  h_S_ : 0 < S_.numel
  slices_S200000x8_S4800x8_0_0 : S200000x8.Slices ![0, 0] S4800x8
  concatenates_S200000x8_S4800x8_S204800x8_d0 : Shape.Concatenates [S200000x8, S4800x8] S204800x8 0
  bitsLt_bf16_f32 : FTy.bits .bf16 < FTy.bits .f32
  bcast_S204800x8_S1x204800x8_1_2 : S204800x8.BroadcastsInDim S1x204800x8 (![1, 2] : Fin 2 → Fin S1x204800x8.rank)
  concatenates_S1x204800x8_S1x204800x8_S2x204800x8_d0 : Shape.Concatenates [S1x204800x8, S1x204800x8] S2x204800x8 0
  shapeCasts_S128_S1x128 : S128.ShapeCasts S1x128
  bcast_S128x128_S1x128x128_1_2 : S128x128.BroadcastsInDim S1x128x128 (![1, 2] : Fin 2 → Fin S1x128x128.rank)
  concatenates_S1x128x128_S1x128x128_S2x128x128_d0 : Shape.Concatenates [S1x128x128, S1x128x128] S2x128x128 0
  bcast_S1x128_S1x1x128_1_2 : S1x128.BroadcastsInDim S1x1x128 (![1, 2] : Fin 2 → Fin S1x1x128.rank)
  concatenates_S1x1x128_S1x1x128_S2x1x128_d0 : Shape.Concatenates [S1x1x128, S1x1x128] S2x1x128 0
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  inb_S1x8192x8_S1x8192x8_0_0_0 : ∀ a, (![0, 0, 0] : Fin 3 → Nat) a + S1x8192x8.size a ≤ S1x8192x8.size a
  h_S1x8192x8 : 0 < S1x8192x8.numel
  shapeCasts_S1x8192x8_S8192x8 : S1x8192x8.ShapeCasts S8192x8
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  reduces_S8192x128_S128 : S8192x128.Reduces [0] S128
  slices_S2x1x128_S1x1x128_0_0_0 : S2x1x128.Slices ![0, 0, 0] S1x1x128
  slices_S2x1x128_S1x1x128_1_0_0 : S2x1x128.Slices ![1, 0, 0] S1x1x128
  concatenates_S1x128_S1x128_S1x128_S1x128_S1x128_S1x640_d1 : Shape.Concatenates [S1x128, S1x128, S1x128, S1x128, S1x128] S1x640 1
  transposes_S128x640_S640x128_1_0 : S128x640.Transposes [1, 0] S640x128
  transposes_S512x128_S128x512_1_0 : S512x128.Transposes [1, 0] S128x512
  bcast_S512_S1x512_1 : S512.BroadcastsInDim S1x512 (![1] : Fin 1 → Fin S1x512.rank)
  slices_S1x512_S1x128_0_0 : S1x512.Slices ![0, 0] S1x128
  slices_S1x512_S1x128_0_128 : S1x512.Slices ![0, 128] S1x128
  slices_S1x512_S1x128_0_256 : S1x512.Slices ![0, 256] S1x128
  slices_S1x512_S1x128_0_384 : S1x512.Slices ![0, 384] S1x128
  reducesTo_S1x128_S1_d1 : S1x128.ReducesTo [1] S1
  bcast_S1_S1x1_0 : S1.BroadcastsInDim S1x1 (![0] : Fin 1 → Fin S1x1.rank)
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  slices_S2x1x204800_S1x1x200000_0_0_0 : S2x1x204800.Slices ![0, 0, 0] S1x1x200000
  shapeCasts_S1x1x200000_S1x200000 : S1x1x200000.ShapeCasts S1x200000
  bcast_S1x1_S1x200000_0_1 : S1x1.BroadcastsInDim S1x200000 (![0, 1] : Fin 2 → Fin S1x200000.rank)
  slices_S2x1x204800_S1x1x200000_1_0_0 : S2x1x204800.Slices ![1, 0, 0] S1x1x200000
  transposes_S5x128_S128x5_1_0 : S5x128.Transposes [1, 0] S128x5
  concatenates_S1x5_S1x5_S1x200000_S1x200000_S1x400010_d1 : Shape.Concatenates [S1x5, S1x5, S1x200000, S1x200000] S1x400010 1
  reducesTo_S1x400010_S1_d1 : S1x400010.ReducesTo [1] S1
  bcast_S_S1 : S_.BroadcastsInDim S1 (![] : Fin 0 → Fin S1.rank)
  bcast_S1x1_S1x400010_0_1 : S1x1.BroadcastsInDim S1x400010 (![0, 1] : Fin 2 → Fin S1x400010.rank)
  transposes_S3x128_S128x3_1_0 : S3x128.Transposes [1, 0] S128x3
  bcast_S3_S1x3_1 : S3.BroadcastsInDim S1x3 (![1] : Fin 1 → Fin S1x3.rank)
  reducesTo_S1x3_S1_d1 : S1x3.ReducesTo [1] S1
  bcast_S1x1_S1x3_0_1 : S1x1.BroadcastsInDim S1x3 (![0, 1] : Fin 2 → Fin S1x3.rank)
  transposes_S9x128_S128x9_1_0 : S9x128.Transposes [1, 0] S128x9
  bcast_S9_S1x9_1 : S9.BroadcastsInDim S1x9 (![1] : Fin 1 → Fin S1x9.rank)
  reducesTo_S1x9_S1_d1 : S1x9.ReducesTo [1] S1
  bcast_S1x1_S1x9_0_1 : S1x1.BroadcastsInDim S1x9 (![0, 1] : Fin 2 → Fin S1x9.rank)
  dot_S1x2_S2x128_S1x128_1_0_0_1_n_n_wf : DotDims.WF S1x2 S2x128 S1x128 [1] [0] [0] [1] [] []
  dot_S5x8_S8x128_S5x128_1_0_0_1_n_n_wf : DotDims.WF S5x8 S8x128 S5x128 [1] [0] [0] [1] [] []
  dot_S5x128_S128x128_S5x128_1_0_0_1_n_n_wf : DotDims.WF S5x128 S128x128 S5x128 [1] [0] [0] [1] [] []
  dot_S8192x8_S128x8_S8192x128_1_1_0_0_n_n_wf : DotDims.WF S8192x8 S128x8 S8192x128 [1] [1] [0] [0] [] []
  dot_S8192x128_S128x128_S8192x128_1_1_0_0_n_n_wf : DotDims.WF S8192x128 S128x128 S8192x128 [1] [1] [0] [0] [] []
  dot_S1x640_S640x128_S1x128_1_0_0_1_n_n_wf : DotDims.WF S1x640 S640x128 S1x128 [1] [0] [0] [1] [] []
  dot_S1x128_S128x512_S1x512_1_0_0_1_n_n_wf : DotDims.WF S1x128 S128x512 S1x512 [1] [0] [0] [1] [] []
  dot_S1x128_S128x128_S1x128_1_0_0_1_n_n_wf : DotDims.WF S1x128 S128x128 S1x128 [1] [0] [0] [1] [] []
  dot_S1x128_S8192x128_S1x8192_1_1_0_0_n_n_wf : DotDims.WF S1x128 S8192x128 S1x8192 [1] [1] [0] [0] [] []
  dot_S1x128_S128x5_S1x5_1_0_0_1_n_n_wf : DotDims.WF S1x128 S128x5 S1x5 [1] [0] [0] [1] [] []
  dot_S1x128_S128x3_S1x3_1_0_0_1_n_n_wf : DotDims.WF S1x128 S128x3 S1x3 [1] [0] [0] [1] [] []
  dot_S1x128_S128x9_S1x9_1_0_0_1_n_n_wf : DotDims.WF S1x128 S128x9 S1x9 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x8.size a ≤ S2x204800x8.size a
  hwx0_0 : ∀ i : grid0.Coords, EltTy.bits .bf16 = 32 ∨ (Rect.block (s := S2x204800x8) S1x8192x8.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x8.size a ≤ S128x8.size a
  hwx0_1 : ∀ i : grid0.Coords, EltTy.bits .bf16 = 32 ∨ (Rect.block (s := S128x8) S128x8.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x128.size a ≤ S2x128x128.size a
  hwx0_3 : ∀ i : grid0.Coords, EltTy.bits .bf16 = 32 ∨ (Rect.block (s := S2x128x128) S1x128x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S2x1x128.size a
  hwx0_4 : ∀ i : grid0.Coords, EltTy.bits .f32 = 32 ∨ (Rect.block (s := S2x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S2x1x128.size a
  hwx0_5 : ∀ i : grid0.Coords, EltTy.bits .f32 = 32 ∨ (Rect.block (s := S2x1x128) S1x1x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8192x8.size a ≤ S2x204800x8.size a
  hwx1_0 : ∀ i : grid1.Coords, EltTy.bits .bf16 = 32 ∨ (Rect.block (s := S2x204800x8) S1x8192x8.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x8.size a ≤ S128x8.size a
  hwx1_1 : ∀ i : grid1.Coords, EltTy.bits .bf16 = 32 ∨ (Rect.block (s := S128x8) S128x8.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x128.size a ≤ S2x1x128.size a
  hwx1_3 : ∀ i : grid1.Coords, EltTy.bits .f32 = 32 ∨ (Rect.block (s := S2x1x128) S1x1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x8192.size a ≤ S2x1x204800.size a
  hwx1_4 : ∀ i : grid1.Coords, EltTy.bits .f32 = 32 ∨ (Rect.block (s := S2x1x204800) S1x1x8192.size (cc1_transform_4 i) (hinb1_4 i)).WholeWords (EltTy.packing .f32)

variable [Facts₀]

def dot_S1x2_S2x128_S1x128_1_0_0_1_n_n : DotDims S1x2 S2x128 S1x128 where
  lhsContracting := [1]
  rhsContracting := [0]
  lhsNonContracting := [0]
  rhsNonContracting := [1]
  lhsBatch := []
  rhsBatch := []
  wf := dot_S1x2_S2x128_S1x128_1_0_0_1_n_n_wf
def dot_S5x8_S8x128_S5x128_1_0_0_1_n_n : DotDims S5x8 S8x128 S5x128 where
  lhsContracting := [1]
  rhsContracting := [0]
  lhsNonContracting := [0]
  rhsNonContracting := [1]
  lhsBatch := []
  rhsBatch := []
  wf := dot_S5x8_S8x128_S5x128_1_0_0_1_n_n_wf
def dot_S5x128_S128x128_S5x128_1_0_0_1_n_n : DotDims S5x128 S128x128 S5x128 where
  lhsContracting := [1]
  rhsContracting := [0]
  lhsNonContracting := [0]
  rhsNonContracting := [1]
  lhsBatch := []
  rhsBatch := []
  wf := dot_S5x128_S128x128_S5x128_1_0_0_1_n_n_wf
def dot_S8192x8_S128x8_S8192x128_1_1_0_0_n_n : DotDims S8192x8 S128x8 S8192x128 where
  lhsContracting := [1]
  rhsContracting := [1]
  lhsNonContracting := [0]
  rhsNonContracting := [0]
  lhsBatch := []
  rhsBatch := []
  wf := dot_S8192x8_S128x8_S8192x128_1_1_0_0_n_n_wf
def dot_S8192x128_S128x128_S8192x128_1_1_0_0_n_n : DotDims S8192x128 S128x128 S8192x128 where
  lhsContracting := [1]
  rhsContracting := [1]
  lhsNonContracting := [0]
  rhsNonContracting := [0]
  lhsBatch := []
  rhsBatch := []
  wf := dot_S8192x128_S128x128_S8192x128_1_1_0_0_n_n_wf
def dot_S1x640_S640x128_S1x128_1_0_0_1_n_n : DotDims S1x640 S640x128 S1x128 where
  lhsContracting := [1]
  rhsContracting := [0]
  lhsNonContracting := [0]
  rhsNonContracting := [1]
  lhsBatch := []
  rhsBatch := []
  wf := dot_S1x640_S640x128_S1x128_1_0_0_1_n_n_wf
def dot_S1x128_S128x512_S1x512_1_0_0_1_n_n : DotDims S1x128 S128x512 S1x512 where
  lhsContracting := [1]
  rhsContracting := [0]
  lhsNonContracting := [0]
  rhsNonContracting := [1]
  lhsBatch := []
  rhsBatch := []
  wf := dot_S1x128_S128x512_S1x512_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S1x128_S8192x128_S1x8192_1_1_0_0_n_n : DotDims S1x128 S8192x128 S1x8192 where
  lhsContracting := [1]
  rhsContracting := [1]
  lhsNonContracting := [0]
  rhsNonContracting := [0]
  lhsBatch := []
  rhsBatch := []
  wf := dot_S1x128_S8192x128_S1x8192_1_1_0_0_n_n_wf
def dot_S1x128_S128x5_S1x5_1_0_0_1_n_n : DotDims S1x128 S128x5 S1x5 where
  lhsContracting := [1]
  rhsContracting := [0]
  lhsNonContracting := [0]
  rhsNonContracting := [1]
  lhsBatch := []
  rhsBatch := []
  wf := dot_S1x128_S128x5_S1x5_1_0_0_1_n_n_wf
def dot_S1x128_S128x3_S1x3_1_0_0_1_n_n : DotDims S1x128 S128x3 S1x3 where
  lhsContracting := [1]
  rhsContracting := [0]
  lhsNonContracting := [0]
  rhsNonContracting := [1]
  lhsBatch := []
  rhsBatch := []
  wf := dot_S1x128_S128x3_S1x3_1_0_0_1_n_n_wf
def dot_S1x128_S128x9_S1x9_1_0_0_1_n_n : DotDims S1x128 S128x9 S1x9 where
  lhsContracting := [1]
  rhsContracting := [0]
  lhsNonContracting := [0]
  rhsNonContracting := [1]
  lhsBatch := []
  rhsBatch := []
  wf := dot_S1x128_S128x9_S1x9_1_0_0_1_n_n_wf

abbrev win0_0 : Pipeline.Window sig grid0 :=
  Pipeline.Window.ofSpec (Memref.whole main_v39) S1x8192x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S128x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v41) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v45) S1x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v50) S1x1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v51) S1x1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S1x8192x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S128x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v117) S1x1x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v118) S1x1x8192.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1x2 : Shape := ⟨2, ![1, 2]⟩
abbrev S5x8 : Shape := ⟨2, ![5, 8]⟩
abbrev S200000x8 : Shape := ⟨2, ![200000, 8]⟩
abbrev S1x1x128 : Shape := ⟨3, ![1, 1, 128]⟩
abbrev S128x2 : Shape := ⟨2, ![128, 2]⟩
abbrev S128 : Shape := ⟨1, ![128]⟩
abbrev S128x8 : Shape := ⟨2, ![128, 8]⟩
abbrev S128x128 : Shape := ⟨2, ![128, 128]⟩
abbrev S128x640 : Shape := ⟨2, ![128, 640]⟩
abbrev S512x128 : Shape := ⟨2, ![512, 128]⟩
abbrev S512 : Shape := ⟨1, ![512]⟩
abbrev S3x128 : Shape := ⟨2, ![3, 128]⟩
abbrev S3 : Shape := ⟨1, ![3]⟩
abbrev S9x128 : Shape := ⟨2, ![9, 128]⟩
abbrev S9 : Shape := ⟨1, ![9]⟩
abbrev S2x128 : Shape := ⟨2, ![2, 128]⟩
abbrev S1x128 : Shape := ⟨2, ![1, 128]⟩
abbrev S_ : Shape := ⟨0, ![]⟩
abbrev S8x128 : Shape := ⟨2, ![8, 128]⟩
abbrev S5x128 : Shape := ⟨2, ![5, 128]⟩
abbrev S200000x128 : Shape := ⟨2, ![200000, 128]⟩
abbrev S400010x128 : Shape := ⟨2, ![400010, 128]⟩
abbrev S1x640 : Shape := ⟨2, ![1, 640]⟩
abbrev S640x128 : Shape := ⟨2, ![640, 128]⟩
abbrev S128x512 : Shape := ⟨2, ![128, 512]⟩
abbrev S1x512 : Shape := ⟨2, ![1, 512]⟩
abbrev S128x400010 : Shape := ⟨2, ![128, 400010]⟩
abbrev S1x400010 : Shape := ⟨2, ![1, 400010]⟩
abbrev S128x3 : Shape := ⟨2, ![128, 3]⟩
abbrev S1x3 : Shape := ⟨2, ![1, 3]⟩
abbrev S1 : Shape := ⟨1, ![1]⟩
abbrev S1x1 : Shape := ⟨2, ![1, 1]⟩
abbrev S128x9 : Shape := ⟨2, ![128, 9]⟩
abbrev S1x9 : Shape := ⟨2, ![1, 9]⟩

abbrev nBuf : Space → Nat
  | .hbm => 234
  | .vmem => 0
  | .smem => 0
  | _ => 0

abbrev hbmTy0_0 (i : Nat) : BufTy := match i % 128 with
  | 0 => ⟨S1x2, .f32⟩
  | 1 => ⟨S5x8, .f32⟩
  | 2 => ⟨S5x8, .f32⟩
  | 3 => ⟨S200000x8, .f32⟩
  | 4 => ⟨S200000x8, .f32⟩
  | 5 => ⟨S1x1x128, .f32⟩
  | 6 => ⟨S1x1x128, .f32⟩
  | 7 => ⟨S128x2, .f32⟩
  | 8 => ⟨S128, .f32⟩
  | 9 => ⟨S128x8, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128x128, .f32⟩
  | 18 => ⟨S128, .f32⟩
  | 19 => ⟨S128x640, .f32⟩
  | 20 => ⟨S128, .f32⟩
  | 21 => ⟨S512x128, .f32⟩
  | 22 => ⟨S512, .f32⟩
  | 23 => ⟨S512x128, .f32⟩
  | 24 => ⟨S512, .f32⟩
  | 25 => ⟨S3x128, .f32⟩
  | 26 => ⟨S3, .f32⟩
  | 27 => ⟨S9x128, .f32⟩
  | 28 => ⟨S9, .f32⟩
  | 29 => ⟨S9x128, .f32⟩
  | 30 => ⟨S9, .f32⟩
  | 31 => ⟨S128x128, .f32⟩
  | 32 => ⟨S128, .f32⟩
  | 33 => ⟨S2x128, .f32⟩
  | 34 => ⟨S1x128, .f32⟩
  | 35 => ⟨S1x128, .f32⟩
  | 36 => ⟨S1x128, .f32⟩
  | 37 => ⟨S_, .f32⟩
  | 38 => ⟨S1x128, .f32⟩
  | 39 => ⟨S1x128, .f32⟩
  | 40 => ⟨S8x128, .f32⟩
  | 41 => ⟨S5x128, .f32⟩
  | 42 => ⟨S1x128, .f32⟩
  | 43 => ⟨S5x128, .f32⟩
  | 44 => ⟨S5x128, .f32⟩
  | 45 => ⟨S_, .f32⟩
  | 46 => ⟨S5x128, .f32⟩
  | 47 => ⟨S5x128, .f32⟩
  | 48 => ⟨S128x128, .f32⟩
  | 49 => ⟨S5x128, .f32⟩
  | 50 => ⟨S1x128, .f32⟩
  | 51 => ⟨S5x128, .f32⟩
  | 52 => ⟨S5x128, .f32⟩
  | 53 => ⟨S_, .f32⟩
  | 54 => ⟨S128, .f32⟩
  | 55 => ⟨S1x128, .f32⟩
  | 56 => ⟨S8x128, .f32⟩
  | 57 => ⟨S5x128, .f32⟩
  | 58 => ⟨S1x128, .f32⟩
  | 59 => ⟨S5x128, .f32⟩
  | 60 => ⟨S5x128, .f32⟩
  | 61 => ⟨S_, .f32⟩
  | 62 => ⟨S5x128, .f32⟩
  | 63 => ⟨S5x128, .f32⟩
  | 64 => ⟨S128x128, .f32⟩
  | 65 => ⟨S5x128, .f32⟩
  | 66 => ⟨S1x128, .f32⟩
  | 67 => ⟨S5x128, .f32⟩
  | 68 => ⟨S5x128, .f32⟩
  | 69 => ⟨S_, .f32⟩
  | 70 => ⟨S128, .f32⟩
  | 71 => ⟨S1x128, .f32⟩
  | 72 => ⟨S8x128, .f32⟩
  | 73 => ⟨S200000x128, .f32⟩
  | 74 => ⟨S1x128, .f32⟩
  | 75 => ⟨S200000x128, .f32⟩
  | 76 => ⟨S200000x128, .f32⟩
  | 77 => ⟨S_, .f32⟩
  | 78 => ⟨S200000x128, .f32⟩
  | 79 => ⟨S200000x128, .f32⟩
  | 80 => ⟨S128x128, .f32⟩
  | 81 => ⟨S200000x128, .f32⟩
  | 82 => ⟨S1x128, .f32⟩
  | 83 => ⟨S200000x128, .f32⟩
  | 84 => ⟨S200000x128, .f32⟩
  | 85 => ⟨S_, .f32⟩
  | 86 => ⟨S128, .f32⟩
  | 87 => ⟨S1x128, .f32⟩
  | 88 => ⟨S8x128, .f32⟩
  | 89 => ⟨S200000x128, .f32⟩
  | 90 => ⟨S1x128, .f32⟩
  | 91 => ⟨S200000x128, .f32⟩
  | 92 => ⟨S200000x128, .f32⟩
  | 93 => ⟨S_, .f32⟩
  | 94 => ⟨S200000x128, .f32⟩
  | 95 => ⟨S200000x128, .f32⟩
  | 96 => ⟨S128x128, .f32⟩
  | 97 => ⟨S200000x128, .f32⟩
  | 98 => ⟨S1x128, .f32⟩
  | 99 => ⟨S200000x128, .f32⟩
  | 100 => ⟨S200000x128, .f32⟩
  | 101 => ⟨S_, .f32⟩
  | 102 => ⟨S128, .f32⟩
  | 103 => ⟨S1x128, .f32⟩
  | 104 => ⟨S400010x128, .f32⟩
  | 105 => ⟨S1x640, .f32⟩
  | 106 => ⟨S640x128, .f32⟩
  | 107 => ⟨S1x128, .f32⟩
  | 108 => ⟨S1x128, .f32⟩
  | 109 => ⟨S1x128, .f32⟩
  | 110 => ⟨S_, .f32⟩
  | 111 => ⟨S1x128, .f32⟩
  | 112 => ⟨S1x128, .f32⟩
  | 113 => ⟨S1x128, .f32⟩
  | 114 => ⟨S1x128, .f32⟩
  | 115 => ⟨S128x512, .f32⟩
  | 116 => ⟨S1x512, .f32⟩
  | 117 => ⟨S1x512, .f32⟩
  | 118 => ⟨S1x512, .f32⟩
  | 119 => ⟨S128x512, .f32⟩
  | 120 => ⟨S1x512, .f32⟩
  | 121 => ⟨S1x512, .f32⟩
  | 122 => ⟨S1x512, .f32⟩
  | 123 => ⟨S1x512, .f32⟩
  | 124 => ⟨S1x128, .f32⟩
  | 125 => ⟨S1x128, .f32⟩
  | 126 => ⟨S1x128, .f32⟩
  | 127 => ⟨S1x128, .f32⟩
  | _ => ⟨S1x2, .f32⟩

abbrev hbmTy0_1 (i : Nat) : BufTy := match i % 128 with
  | 0 => ⟨S1x128, .f32⟩
  | 1 => ⟨S1x128, .f32⟩
  | 2 => ⟨S_, .f32⟩
  | 3 => ⟨S1x128, .f32⟩
  | 4 => ⟨S1x128, .f32⟩
  | 5 => ⟨S_, .f32⟩
  | 6 => ⟨S1x128, .f32⟩
  | 7 => ⟨S1x128, .f32⟩
  | 8 => ⟨S1x128, .f32⟩
  | 9 => ⟨S1x128, .f32⟩
  | 10 => ⟨S1x128, .f32⟩
  | 11 => ⟨S_, .f32⟩
  | 12 => ⟨S1x128, .f32⟩
  | 13 => ⟨S1x128, .f32⟩
  | 14 => ⟨S_, .f32⟩
  | 15 => ⟨S1x128, .f32⟩
  | 16 => ⟨S1x128, .f32⟩
  | 17 => ⟨S1x128, .f32⟩
  | 18 => ⟨S1x128, .f32⟩
  | 19 => ⟨S1x128, .f32⟩
  | 20 => ⟨S1x128, .f32⟩
  | 21 => ⟨S1x128, .f32⟩
  | 22 => ⟨S_, .f32⟩
  | 23 => ⟨S1x128, .f32⟩
  | 24 => ⟨S1x128, .f32⟩
  | 25 => ⟨S_, .f32⟩
  | 26 => ⟨S1x128, .f32⟩
  | 27 => ⟨S1x128, .f32⟩
  | 28 => ⟨S1x128, .f32⟩
  | 29 => ⟨S1x128, .f32⟩
  | 30 => ⟨S128x128, .f32⟩
  | 31 => ⟨S1x128, .f32⟩
  | 32 => ⟨S1x128, .f32⟩
  | 33 => ⟨S1x128, .f32⟩
  | 34 => ⟨S128x400010, .f32⟩
  | 35 => ⟨S1x400010, .f32⟩
  | 36 => ⟨S128x3, .f32⟩
  | 37 => ⟨S1x3, .f32⟩
  | 38 => ⟨S1x3, .f32⟩
  | 39 => ⟨S1x3, .f32⟩
  | 40 => ⟨S_, .f32⟩
  | 41 => ⟨S1, .f32⟩
  | 42 => ⟨S_, .f32⟩
  | 43 => ⟨S1, .f32⟩
  | 44 => ⟨S1, .f32⟩
  | 45 => ⟨S1x1, .f32⟩
  | 46 => ⟨S1x3, .f32⟩
  | 47 => ⟨S1x3, .f32⟩
  | 48 => ⟨S1x3, .f32⟩
  | 49 => ⟨S_, .f32⟩
  | 50 => ⟨S1, .f32⟩
  | 51 => ⟨S1x1, .f32⟩
  | 52 => ⟨S1x3, .f32⟩
  | 53 => ⟨S1x3, .f32⟩
  | 54 => ⟨S128x9, .f32⟩
  | 55 => ⟨S1x9, .f32⟩
  | 56 => ⟨S1x9, .f32⟩
  | 57 => ⟨S1x9, .f32⟩
  | 58 => ⟨S_, .f32⟩
  | 59 => ⟨S1, .f32⟩
  | 60 => ⟨S_, .f32⟩
  | 61 => ⟨S1, .f32⟩
  | 62 => ⟨S1, .f32⟩
  | 63 => ⟨S1x1, .f32⟩
  | 64 => ⟨S1x9, .f32⟩
  | 65 => ⟨S1x9, .f32⟩
  | 66 => ⟨S1x9, .f32⟩
  | 67 => ⟨S_, .f32⟩
  | 68 => ⟨S1, .f32⟩
  | 69 => ⟨S1x1, .f32⟩
  | 70 => ⟨S1x9, .f32⟩
  | 71 => ⟨S1x9, .f32⟩
  | 72 => ⟨S128x9, .f32⟩
  | 73 => ⟨S1x9, .f32⟩
  | 74 => ⟨S1x9, .f32⟩
  | 75 => ⟨S1x9, .f32⟩
  | 76 => ⟨S_, .f32⟩
  | 77 => ⟨S1, .f32⟩
  | 78 => ⟨S_, .f32⟩
  | 79 => ⟨S1, .f32⟩
  | 80 => ⟨S1, .f32⟩
  | 81 => ⟨S1x1, .f32⟩
  | 82 => ⟨S1x9, .f32⟩
  | 83 => ⟨S1x9, .f32⟩
  | 84 => ⟨S1x9, .f32⟩
  | 85 => ⟨S_, .f32⟩
  | 86 => ⟨S1, .f32⟩
  | 87 => ⟨S1x1, .f32⟩
  | 88 => ⟨S1x9, .f32⟩
  | 89 => ⟨S1x9, .f32⟩
  | 90 => ⟨S_, .f32⟩
  | 91 => ⟨S1, .f32⟩
  | 92 => ⟨S_, .f32⟩
  | 93 => ⟨S1, .f32⟩
  | 94 => ⟨S1, .f32⟩
  | 95 => ⟨S1x1, .f32⟩
  | 96 => ⟨S1x400010, .f32⟩
  | 97 => ⟨S1x400010, .f32⟩
  | 98 => ⟨S1x400010, .f32⟩
  | 99 => ⟨S_, .f32⟩
  | 100 => ⟨S1, .f32⟩
  | 101 => ⟨S1x1, .f32⟩
  | 102 => ⟨S1x400010, .f32⟩
  | 103 => ⟨S1x400010, .f32⟩
  | 104 => ⟨S1x1x128, .f32⟩
  | 105 => ⟨S1x1x128, .f32⟩
  | _ => ⟨S1x2, .f32⟩

abbrev hbmTy (i : Nat) : BufTy := match i / 128 with
  | 0 => hbmTy0_0 i
  | 1 => hbmTy0_1 i
  | _ => ⟨S1x2, .f32⟩

abbrev bufTy : (tb : Table) → Fin (tcTables nBuf tb) → BufTy
  | .hbm, ⟨i, _⟩ => hbmTy i
  | _, _ => ⟨S1x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_call0_cst : Ref sig .tc := ⟨.hbm, 37, rfl⟩
abbrev main_call0_v0 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_call1_cst : Ref sig .tc := ⟨.hbm, 45, rfl⟩
abbrev main_call1_v0 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_cst : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_call2_cst : Ref sig .tc := ⟨.hbm, 61, rfl⟩
abbrev main_call2_v0 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_cst_0 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_call3_cst : Ref sig .tc := ⟨.hbm, 77, rfl⟩
abbrev main_call3_v0 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_cst_1 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_call4_cst : Ref sig .tc := ⟨.hbm, 93, rfl⟩
abbrev main_call4_v0 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_cst_2 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_call5_cst : Ref sig .tc := ⟨.hbm, 110, rfl⟩
abbrev main_call5_v0 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_cst_3 : Ref sig .tc := ⟨.hbm, 130, rfl⟩
abbrev main_v81 : Ref sig .tc := ⟨.hbm, 131, rfl⟩
abbrev main_v82 : Ref sig .tc := ⟨.hbm, 132, rfl⟩
abbrev main_cst_4 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_cst_5 : Ref sig .tc := ⟨.hbm, 139, rfl⟩
abbrev main_v88 : Ref sig .tc := ⟨.hbm, 140, rfl⟩
abbrev main_v89 : Ref sig .tc := ⟨.hbm, 141, rfl⟩
abbrev main_cst_6 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_cst_7 : Ref sig .tc := ⟨.hbm, 150, rfl⟩
abbrev main_v97 : Ref sig .tc := ⟨.hbm, 151, rfl⟩
abbrev main_v98 : Ref sig .tc := ⟨.hbm, 152, rfl⟩
abbrev main_cst_8 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_cst_9 : Ref sig .tc := ⟨.hbm, 168, rfl⟩
abbrev main_v113 : Ref sig .tc := ⟨.hbm, 169, rfl⟩
abbrev main_cst_10 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_cst_11 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_cst_12 : Ref sig .tc := ⟨.hbm, 186, rfl⟩
abbrev main_v128 : Ref sig .tc := ⟨.hbm, 187, rfl⟩
abbrev main_cst_13 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_cst_14 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_cst_15 : Ref sig .tc := ⟨.hbm, 204, rfl⟩
abbrev main_v143 : Ref sig .tc := ⟨.hbm, 205, rfl⟩
abbrev main_cst_16 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_cst_17 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_cst_18 : Ref sig .tc := ⟨.hbm, 218, rfl⟩
abbrev main_v154 : Ref sig .tc := ⟨.hbm, 219, rfl⟩
abbrev main_cst_19 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_cst_20 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩

abbrev nD : Nat := 1
abbrev τ : Topo := Topo.v7x

variable {F : FTy → Type} [FloatOps F]

class Facts₀ : Prop where
  transposes_S128x2_S2x128_1_0 : S128x2.Transposes [1, 0] S2x128
  bcast_S128_S1x128_1 : S128.BroadcastsInDim S1x128 (![1] : Fin 1 → Fin S1x128.rank)
  bcast_S_S1x128 : S_.BroadcastsInDim S1x128 (![] : Fin 0 → Fin S1x128.rank)
  transposes_S128x8_S8x128_1_0 : S128x8.Transposes [1, 0] S8x128
  bcast_S1x128_S5x128_0_1 : S1x128.BroadcastsInDim S5x128 (![0, 1] : Fin 2 → Fin S5x128.rank)
  bcast_S_S5x128 : S_.BroadcastsInDim S5x128 (![] : Fin 0 → Fin S5x128.rank)
  transposes_S128x128_S128x128_1_0 : S128x128.Transposes [1, 0] S128x128
  reducesTo_S5x128_S128_d0 : S5x128.ReducesTo [0] S128
  h_S_ : 0 < S_.numel
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  reducesTo_S200000x128_S128_d0 : S200000x128.ReducesTo [0] S128
  concatenates_S5x128_S5x128_S200000x128_S200000x128_S400010x128_d0 : Shape.Concatenates [S5x128, S5x128, S200000x128, S200000x128] S400010x128 0
  concatenates_S1x128_S1x128_S1x128_S1x128_S1x128_S1x640_d1 : Shape.Concatenates [S1x128, S1x128, S1x128, S1x128, S1x128] S1x640 1
  transposes_S128x640_S640x128_1_0 : S128x640.Transposes [1, 0] S640x128
  shapeCasts_S1x1x128_S1x128 : S1x1x128.ShapeCasts S1x128
  transposes_S512x128_S128x512_1_0 : S512x128.Transposes [1, 0] S128x512
  bcast_S512_S1x512_1 : S512.BroadcastsInDim S1x512 (![1] : Fin 1 → Fin S1x512.rank)
  slices_S1x512_S1x128_0_0 : S1x512.Slices ![0, 0] S1x128
  slices_S1x512_S1x128_0_128 : S1x512.Slices ![0, 128] S1x128
  slices_S1x512_S1x128_0_256 : S1x512.Slices ![0, 256] S1x128
  slices_S1x512_S1x128_0_384 : S1x512.Slices ![0, 384] S1x128
  transposes_S400010x128_S128x400010_1_0 : S400010x128.Transposes [1, 0] S128x400010
  transposes_S3x128_S128x3_1_0 : S3x128.Transposes [1, 0] S128x3
  bcast_S3_S1x3_1 : S3.BroadcastsInDim S1x3 (![1] : Fin 1 → Fin S1x3.rank)
  reducesTo_S1x3_S1_d1 : S1x3.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x3_0_1 : S1x1.BroadcastsInDim S1x3 (![0, 1] : Fin 2 → Fin S1x3.rank)
  transposes_S9x128_S128x9_1_0 : S9x128.Transposes [1, 0] S128x9
  bcast_S9_S1x9_1 : S9.BroadcastsInDim S1x9 (![1] : Fin 1 → Fin S1x9.rank)
  reducesTo_S1x9_S1_d1 : S1x9.ReducesTo [1] S1
  bcast_S1x1_S1x9_0_1 : S1x1.BroadcastsInDim S1x9 (![0, 1] : Fin 2 → Fin S1x9.rank)
  reducesTo_S1x400010_S1_d1 : S1x400010.ReducesTo [1] S1
  bcast_S1x1_S1x400010_0_1 : S1x1.BroadcastsInDim S1x400010 (![0, 1] : Fin 2 → Fin S1x400010.rank)
  bcast_S1x128_S1x1x128_1_2 : S1x128.BroadcastsInDim S1x1x128 (![1, 2] : Fin 2 → Fin S1x1x128.rank)
  dot_S1x2_S2x128_S1x128_1_0_0_1_n_n_wf : DotDims.WF S1x2 S2x128 S1x128 [1] [0] [0] [1] [] []
  dot_S5x8_S8x128_S5x128_1_0_0_1_n_n_wf : DotDims.WF S5x8 S8x128 S5x128 [1] [0] [0] [1] [] []
  dot_S5x128_S128x128_S5x128_1_0_0_1_n_n_wf : DotDims.WF S5x128 S128x128 S5x128 [1] [0] [0] [1] [] []
  dot_S200000x8_S8x128_S200000x128_1_0_0_1_n_n_wf : DotDims.WF S200000x8 S8x128 S200000x128 [1] [0] [0] [1] [] []
  dot_S200000x128_S128x128_S200000x128_1_0_0_1_n_n_wf : DotDims.WF S200000x128 S128x128 S200000x128 [1] [0] [0] [1] [] []
  dot_S1x640_S640x128_S1x128_1_0_0_1_n_n_wf : DotDims.WF S1x640 S640x128 S1x128 [1] [0] [0] [1] [] []
  dot_S1x128_S128x512_S1x512_1_0_0_1_n_n_wf : DotDims.WF S1x128 S128x512 S1x512 [1] [0] [0] [1] [] []
  dot_S1x128_S128x128_S1x128_1_0_0_1_n_n_wf : DotDims.WF S1x128 S128x128 S1x128 [1] [0] [0] [1] [] []
  dot_S1x128_S128x400010_S1x400010_1_0_0_1_n_n_wf : DotDims.WF S1x128 S128x400010 S1x400010 [1] [0] [0] [1] [] []
  dot_S1x128_S128x3_S1x3_1_0_0_1_n_n_wf : DotDims.WF S1x128 S128x3 S1x3 [1] [0] [0] [1] [] []
  dot_S1x128_S128x9_S1x9_1_0_0_1_n_n_wf : DotDims.WF S1x128 S128x9 S1x9 [1] [0] [0] [1] [] []

variable [Facts₀]

def dot_S1x2_S2x128_S1x128_1_0_0_1_n_n : DotDims S1x2 S2x128 S1x128 where
  lhsContracting := [1]
  rhsContracting := [0]
  lhsNonContracting := [0]
  rhsNonContracting := [1]
  lhsBatch := []
  rhsBatch := []
  wf := dot_S1x2_S2x128_S1x128_1_0_0_1_n_n_wf
def dot_S5x8_S8x128_S5x128_1_0_0_1_n_n : DotDims S5x8 S8x128 S5x128 where
  lhsContracting := [1]
  rhsContracting := [0]
  lhsNonContracting := [0]
  rhsNonContracting := [1]
  lhsBatch := []
  rhsBatch := []
  wf := dot_S5x8_S8x128_S5x128_1_0_0_1_n_n_wf
def dot_S5x128_S128x128_S5x128_1_0_0_1_n_n : DotDims S5x128 S128x128 S5x128 where
  lhsContracting := [1]
  rhsContracting := [0]
  lhsNonContracting := [0]
  rhsNonContracting := [1]
  lhsBatch := []
  rhsBatch := []
  wf := dot_S5x128_S128x128_S5x128_1_0_0_1_n_n_wf
def dot_S200000x8_S8x128_S200000x128_1_0_0_1_n_n : DotDims S200000x8 S8x128 S200000x128 where
  lhsContracting := [1]
  rhsContracting := [0]
  lhsNonContracting := [0]
  rhsNonContracting := [1]
  lhsBatch := []
  rhsBatch := []
  wf := dot_S200000x8_S8x128_S200000x128_1_0_0_1_n_n_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def dot_S1x640_S640x128_S1x128_1_0_0_1_n_n : DotDims S1x640 S640x128 S1x128 where
  lhsContracting := [1]
  rhsContracting := [0]
  lhsNonContracting := [0]
  rhsNonContracting := [1]
  lhsBatch := []
  rhsBatch := []
  wf := dot_S1x640_S640x128_S1x128_1_0_0_1_n_n_wf
def dot_S1x128_S128x512_S1x512_1_0_0_1_n_n : DotDims S1x128 S128x512 S1x512 where
  lhsContracting := [1]
  rhsContracting := [0]
  lhsNonContracting := [0]
  rhsNonContracting := [1]
  lhsBatch := []
  rhsBatch := []
  wf := dot_S1x128_S128x512_S1x512_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S1x128_S128x400010_S1x400010_1_0_0_1_n_n : DotDims S1x128 S128x400010 S1x400010 where
  lhsContracting := [1]
  rhsContracting := [0]
  lhsNonContracting := [0]
  rhsNonContracting := [1]
  lhsBatch := []
  rhsBatch := []
  wf := dot_S1x128_S128x400010_S1x400010_1_0_0_1_n_n_wf
def dot_S1x128_S128x3_S1x3_1_0_0_1_n_n : DotDims S1x128 S128x3 S1x3 where
  lhsContracting := [1]
  rhsContracting := [0]
  lhsNonContracting := [0]
  rhsNonContracting := [1]
  lhsBatch := []
  rhsBatch := []
  wf := dot_S1x128_S128x3_S1x3_1_0_0_1_n_n_wf
def dot_S1x128_S128x9_S1x9_1_0_0_1_n_n : DotDims S1x128 S128x9 S1x9 where
  lhsContracting := [1]
  rhsContracting := [0]
  lhsNonContracting := [0]
  rhsNonContracting := [1]
  lhsBatch := []
  rhsBatch := []
  wf := dot_S1x128_S128x9_S1x9_1_0_0_1_n_n_wf

class Facts : Prop extends Facts₀ where

variable [Facts]
-- ==== Proof.KRegion0.lean ====
import proofs.«404624_j46557445488821_3_alg».proof.Proof.Gen.Kernel.Launch
import proofs.«404624_j46557445488821_3_alg».proof.Proof.Gen.Kernel.Skeleton
import proofs.«404624_j46557445488821_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

-- The tile's column maximum at point `t` joined to `a`.
def upd0 (c : Dev nD) (t : Fin cfg0.N) (a : Vec F S1x1x128 .f32) : Vec F S1x1x128 .f32 :=
  k0_pay2 (iblk0 V c 0 t) (iblk0 V c 1 t) (iblk0 V c 2 t) (iblk0 V c 3 t) (iblk0 V c 4 t) a

-- The running maximum after point `n`: it restarts from the initial value at the first point of each group of 25.
def acc0 (c : Dev nD) : ℕ → Vec F S1x1x128 .f32
  | 0 => if hn : 0 < cfg0.N then upd0 V c ⟨0, hn⟩ (k0_pay1 (F := F)) else k0_pay1 (F := F)
  | n + 1 => if hn : n + 1 < cfg0.N then upd0 V c ⟨n + 1, hn⟩ (if (n + 1) % 25 = 0 then k0_pay1 (F := F) else acc0 c n) else acc0 c n

theorem acc0_at (c : Dev nD) (t : Fin cfg0.N) :
    acc0 V c t.val = upd0 V c t (if t.val % 25 = 0 then k0_pay1 (F := F) else acc0 V c (t.val - 1)) := by
  obtain ⟨_ | n, hn⟩ := t <;> rw [acc0, dif_pos hn] <;> rfl

theorem acc0_reset (c : Dev nD) (n : ℕ) (hn : n < cfg0.N) (h : n % 25 = 0) :
    acc0 V c n = k0_pay2 (iblk0 V c 0 ⟨n, hn⟩) (iblk0 V c 1 ⟨n, hn⟩) (iblk0 V c 2 ⟨n, hn⟩) (iblk0 V c 3 ⟨n, hn⟩) (iblk0 V c 4 ⟨n, hn⟩) (k0_pay1 (F := F)) := by
  rw [acc0_at V c ⟨n, hn⟩, if_pos h, upd0]

theorem acc0_step (c : Dev nD) (n : ℕ) (hn : n + 1 < cfg0.N) (h : (n + 1) % 25 ≠ 0) :
    acc0 V c (n + 1) = k0_pay2 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (acc0 V c n) := by
  rw [acc0_at V c ⟨n + 1, hn⟩, if_neg h, upd0]; rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => acc0 V c t.val
  Φ _ := Pipeline.ΦA spec0 c
  q _ := fullShare
  owed _ := 0

theorem A_eq0 (c : Dev nD) (w : Fin cfg0.W) : (dat0 V c).A w = V c (Pipeline.arrRef spec0 w) := by
  dsimp only [dat0]

theorem before0_in (c : Dev nD) (t : Fin cfg0.N) :
    (∀ d, (dat0 V c).before 0 t d = iblk0 V c 0 t) ∧ (∀ d, (dat0 V c).before 1 t d = iblk0 V c 1 t)
      ∧ (∀ d, (dat0 V c).before 2 t d = iblk0 V c 2 t) ∧ (∀ d, (dat0 V c).before 3 t d = iblk0 V c 3 t)
      ∧ (∀ d, (dat0 V c).before 4 t d = iblk0 V c 4 t) := by
  refine ⟨?_, ?_, ?_, ?_, ?_⟩ <;>
    exact fun d => ((dat0 V c).before_in_eq_fetched _ rfl (fun _ => rfl) (fun _ _ _ => rfl) (fun _ => rfl) t d).trans rfl

abbrev cond0 (i : grid0.Coords) : Prop :=
  (Scalar.cmpi .ne (Scalar.extui (Scalar.cmpi .eq (BitVec.ofNat 32 (i 1).val) 0#32)) 0#32) = 1#1

theorem hcond0 : ∀ t : Fin cfg0.N, cond0 (grid0.coords t) ↔ t.val % 25 = 0 :=
  (by decide +kernel : ∀ t : Fin grid0.N, cond0 (grid0.coords t) ↔ t.val % 25 = 0)

private theorem hz2 : (![0, 0] : Fin 2 → Nat) = fun _ => 0 := by decide
private theorem hz3 : (![0, 0, 0] : Fin 3 → Nat) = fun _ => 0 := by decide

-- One update, from the initial value at a group's first point and else from the point before, gives the running maximum.
theorem acc0_eq (c : Dev nD) (t : Fin cfg0.N) (d) :
    upd0 V c t (if cond0 (grid0.coords t) then k0_pay1 (F := F) else (dat0 V c).before 5 t d) = acc0 V c t.val := by
  rw [acc0_at]
  by_cases h0 : t.val % 25 = 0
  · rw [if_pos h0, if_pos ((hcond0 t).mpr h0)]
  · rw [if_neg h0, if_neg (mt (hcond0 t).mp h0), Dat.before_out_kept _ 5 rfl t (fun e => h0 (by rw [e]))
      (Bool.eq_false_iff.mpr fun h => by have := (flush0_5 _).mp h; dsimp only at this; omega) (fun _ => rfl) fun _ _ => rfl]
    dsimp only [dat0]

set_option maxHeartbeats 1000000 in
theorem body_obligation0 (c : Dev nD) : BodyObligation (dat0 (F := F) V c) (defs₀ (F := F)) Variants.none () Set.univ := fun t => by
  rw [bigSep_W0, bigSep_W0]
  obtain ⟨b0, b1, b2, b3, b4⟩ := before0_in V c t
  simp only [b0, b1, b2, b3, b4]
  show _ ⊢ wp _ _ _ (bodyAt0 t) _
  simp only [bodyAt0, cc0__group_max_kernel_eq_skeleton]; unfold cc0__group_max_kernel_skel
  unfold owns
  by_cases hc : cond0 (grid0.coords t)
  all_goals
    iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩⟩
    sl_exec (disch := first | exact hc)
    sl_step
    dsimp only [dat0]
    isplitl [HΦ]; · iexact HΦ
    isplitl [Ho]; · iexact Ho
    isplitl [H0]; · iexists f0; isplitr; ipureintro; exact hf0; iexact H0
    isplitl [H1]; · iexists f1; isplitr; ipureintro; exact hf1; iexact H1
    isplitl [H2]; · iexists f2; isplitr; ipureintro; exact hf2; iexact H2
    isplitl [H3]; · iexists f3; isplitr; ipureintro; exact hf3; iexact H3
    isplitl [H4]; · iexists f4; isplitr; ipureintro; exact hf4; iexact H4
    iexists _; isplitr
    swap; · iexact H5
    ipureintro
    refine Eq.trans ?_ (acc0_eq V c t d5)
    first | rw [if_pos hc] | rw [if_neg hc]
    sl_unfold_words
    rw [View.read_writes_eq_canon _ _ _ fun y => ⟨_, List.mem_cons.mpr (Or.inl rfl), View.mem_set_unit_zero (S := S1x1x128) hz3 inb_S1x1x128_S1x1x128_0_0_0 y⟩]
    simp only [upd0, ← hf0, ← hf1, ← hf2, ← hf3, ← hf4, ← hf5, View.canon_cons_unit_zero (S := S1x1x128) hz3,
      View.readCov_unit_zero (S := S1x1x128) _ hz3, View.readAt_eq_ld,
      View.ld_unit_zero (S := S1x8192x8) hz3, View.ld_unit_zero (S := S128x8) hz2, View.ld_unit_zero (S := S1x128) hz2,
      View.ld_unit_zero (S := S1x128x128) hz3, View.ld_unit_zero (S := S1x1x128) hz3]

end Cert.Kernel.Hand
end
-- ==== Proof.KRegion1.lean ====
import proofs.«404624_j46557445488821_3_alg».proof.Proof.Gen.Kernel.Launch
import proofs.«404624_j46557445488821_3_alg».proof.Proof.Gen.Kernel.Skeleton
import proofs.«404624_j46557445488821_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

private theorem hz2 : (![0, 0] : Fin 2 → Nat) = fun _ => 0 := by decide
private theorem hz3 : (![0, 0, 0] : Fin 3 → Nat) = fun _ => 0 := by decide

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay1 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_4 (c : Dev nD) (t : Fin cfg1.N) :
    (dat1 V c).after 4 t = k1_pay1 (iblk1 V c 0 t) (iblk1 V c 1 t) (iblk1 V c 2 t) (iblk1 V c 3 t) := by dsimp only [dat1]

theorem before1_in (c : Dev nD) (t : Fin cfg1.N) :
    (∀ d, (dat1 V c).before 0 t d = iblk1 V c 0 t) ∧ (∀ d, (dat1 V c).before 1 t d = iblk1 V c 1 t)
      ∧ (∀ d, (dat1 V c).before 2 t d = iblk1 V c 2 t) ∧ (∀ d, (dat1 V c).before 3 t d = iblk1 V c 3 t) := by
  refine ⟨?_, ?_, ?_, ?_⟩ <;>
    exact fun d => ((dat1 V c).before_in_eq_fetched _ rfl (fun _ => rfl) (fun _ _ _ => rfl) (fun _ => rfl) t d).trans rfl

theorem body_obligation1 (c : Dev nD) : BodyObligation (dat1 (F := F) V c) (defs₀ (F := F)) Variants.none () Set.univ := fun t => by
  rw [bigSep_W1, bigSep_W1]
  obtain ⟨b0, b1, b2, b3⟩ := before1_in V c t
  simp only [b0, b1, b2, b3]
  show _ ⊢ wp _ _ _ (bodyAt1 t) _
  simp only [bodyAt1, cc1__attn_logits_kernel_eq_skeleton]; unfold cc1__attn_logits_kernel_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, -, H4⟩⟩
  sl_exec
  sl_step
  dsimp only [dat1]
  isplitl [HΦ]; · iexact HΦ
  isplitl [Ho]; · iexact Ho
  isplitl [H0]; · iexists f0; isplitr; ipureintro; exact hf0; iexact H0
  isplitl [H1]; · iexists f1; isplitr; ipureintro; exact hf1; iexact H1
  isplitl [H2]; · iexists f2; isplitr; ipureintro; exact hf2; iexact H2
  isplitl [H3]; · iexists f3; isplitr; ipureintro; exact hf3; iexact H3
  iexists _; isplitr
  swap; · iexact H4
  ipureintro
  sl_unfold_words
  refine Eq.trans (View.read_writes_eq_canon _ _ _ fun y => ⟨_, List.mem_singleton_self _,
    View.mem_set_unit_zero (S := S1x1x8192) hz3 inb_S1x1x8192_S1x1x8192_0_0_0 y⟩) ?_
  rw [View.canon_unit_zero (S := S1x1x8192) hz3]
  simp only [← hf0, ← hf1, ← hf2, ← hf3, View.readAt_eq_ld, View.ld_unit_zero (S := S1x8192x8) hz3, View.ld_unit_zero (S := S128x8) hz2,
    View.ld_unit_zero (S := S1x128) hz2, View.ld_unit_zero (S := S1x1x128) hz3]

end Cert.Kernel.Hand
end
-- ==== Proof.KHostSide.lean ====
import proofs.«404624_j46557445488821_3_alg».proof.Proof.Gen.Kernel.Launch
import proofs.«404624_j46557445488821_3_alg».proof.Proof.Gen.Kernel.Skeleton
import proofs.«404624_j46557445488821_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

section Vals
variable (m : (ℓ : Loc nD τ sig) → Buf (Elt F) ℓ)

abbrev V0 (c : Dev nD) : Valuation τ sig (Elt F) := fun b => m (c, b)
abbrev V1 (c : Dev nD) : Valuation τ sig (Elt F) := StableHlo.after hostOps0 (V0 m c)
abbrev V2 (c : Dev nD) : Valuation τ sig (Elt F) := StableHlo.after hostOps0_1 (V1 m c)
abbrev V3 (c : Dev nD) : Valuation τ sig (Elt F) := StableHlo.after hostOps0_2 (V2 m c)
abbrev V4 (c : Dev nD) : Valuation τ sig (Elt F) := StableHlo.after hostOps0_3 (V3 m c)
abbrev V5 (c : Dev nD) : Valuation τ sig (Elt F) := StableHlo.after hostOps0_4 (V4 m c)
abbrev V6 (c : Dev nD) : Valuation τ sig (Elt F) := StableHlo.after hostOps0_5 (V5 m c)

abbrev V7 (c : Dev nD) : Valuation τ sig (Elt F) := StableHlo.after hostOps0_6 (V6 m c)

variable (X8 : Dev nD → Valuation τ sig (Elt F))
abbrev V9 (c : Dev nD) : Valuation τ sig (Elt F) := StableHlo.after hostOps1 (X8 c)
abbrev V10 (c : Dev nD) : Valuation τ sig (Elt F) := StableHlo.after hostOps1_1 (V9 X8 c)

abbrev V11 (c : Dev nD) : Valuation τ sig (Elt F) := StableHlo.after hostOps1_2 (V10 X8 c)

variable (X12 : Dev nD → Valuation τ sig (Elt F))

abbrev V13 (c : Dev nD) : Valuation τ sig (Elt F) := StableHlo.after hostOps2 (X12 c)
end Vals

abbrev adm : (p : Fin 2) → (pcfgs (F := F) p).Adm := fun p => (cfgs p).toPCfg_adm
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29, main_arg30, main_arg31, main_arg32]

def NoArgWrite (ops : List (HloOp τ sig (Elt F))) : Prop :=
  ops.Forall fun op => ∃ y : Ref sig .tc, op.writes = {Proc.devRef .tc y} ∧ y ∉ argRefs

theorem after_arg {ops : List (HloOp τ sig (Elt F))} (h : NoArgWrite ops) (V : Valuation τ sig (Elt F)) {a : Ref sig .tc}
    (ha : a ∈ argRefs) : StableHlo.after ops V (Proc.devRef .tc a) = V (Proc.devRef .tc a) :=
  StableHlo.after_of_forall_not_mem ops V fun op hop hb => by
    obtain ⟨y, hy, hn⟩ := (List.forall_iff_forall_mem.mp h) op hop
    rw [hy, Finset.mem_singleton] at hb
    exact hn (Proc.devRef_injective _ hb ▸ ha)

abbrev Fresh (ops : List (HloOp τ sig (Elt F))) : Prop := ops.Forall fun op => op.fresh = ∅

theorem lines_noArg : List.Forall NoArgWrite ([hostOps0, hostOps0_1, hostOps0_2, hostOps0_3, hostOps0_4, hostOps0_5, hostOps2] : List (List (HloOp τ sig (Elt F)))) := by
  repeat' first | exact ⟨_, rfl, by decide⟩ | constructor
theorem hostOps0_6_noArg : NoArgWrite (hostOps0_6 : List (HloOp τ sig (Elt F))) := by
  repeat' first | exact ⟨_, rfl, by decide⟩ | constructor
theorem hostOps1_noArg : NoArgWrite (hostOps1 : List (HloOp τ sig (Elt F))) := by
  repeat' first | exact ⟨_, rfl, by decide⟩ | constructor
theorem hostOps1_1_noArg : NoArgWrite (hostOps1_1 : List (HloOp τ sig (Elt F))) := by
  repeat' first | exact ⟨_, rfl, by decide⟩ | constructor
theorem hostOps1_2_noArg : NoArgWrite (hostOps1_2 : List (HloOp τ sig (Elt F))) := by
  repeat' first | exact ⟨_, rfl, by decide⟩ | constructor
theorem lines_fresh : List.Forall Fresh ([hostOps0, hostOps0_1, hostOps0_2, hostOps0_3, hostOps0_4, hostOps0_5, hostOps0_6, hostOps1, hostOps1_1, hostOps1_2, hostOps2] : List (List (HloOp τ sig (Elt F)))) := by
  repeat' constructor

section Args
variable (m : (ℓ : Loc nD τ sig) → Buf (Elt F) ℓ) (X8 X12 : Dev nD → Valuation τ sig (Elt F))

theorem V7_arg (c : Dev nD) (a : Ref sig .tc) (ha : a ∈ argRefs) : V7 m c (Proc.devRef .tc a) = m ((c : Thread nD τ).loc a) :=
  (after_arg hostOps0_6_noArg _ ha).trans <| (after_arg lines_noArg.2.2.2.2.2.1 _ ha).trans <| (after_arg lines_noArg.2.2.2.2.1 _ ha).trans <|
    (after_arg lines_noArg.2.2.2.1 _ ha).trans <| (after_arg lines_noArg.2.2.1 _ ha).trans <| (after_arg lines_noArg.2.1 _ ha).trans <|
    (after_arg lines_noArg.1 _ ha).trans rfl

theorem V11_arg (c : Dev nD) (a : Ref sig .tc) (ha : a ∈ argRefs) : V11 X8 c (Proc.devRef .tc a) = X8 c (Proc.devRef .tc a) :=
  (after_arg hostOps1_2_noArg _ ha).trans <| (after_arg hostOps1_1_noArg _ ha).trans <| after_arg hostOps1_noArg _ ha

theorem V13_arg (c : Dev nD) (a : Ref sig .tc) (ha : a ∈ argRefs) : V13 X12 c (Proc.devRef .tc a) = X12 c (Proc.devRef .tc a) :=
  after_arg lines_noArg.2.2.2.2.2.2 _ ha
end Args

abbrev hseg (ops : List (HloOp τ sig (Elt F))) (hsub : ops.Forall fun op => op.bufs ⊆ StableHlo.tcRefs τ sig)
    (hfresh : Fresh ops) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

section Run
variable (m : (ℓ : Loc nD τ sig) → Buf (Elt F) ℓ) (X8 X12 : Dev nD → Valuation τ sig (Elt F))
variable (pdats : (p : Fin 2) → (c : Dev nD) → Dat τ (Elt F) Unit ℕ (UR sig nD τ) ℕ (Pipeline.pin (pcfgs (F := F)) adm p) c)
variable (R0 : Pipeline.RegionSeg (pcfgs (F := F)) adm pdats () defs₀ 𝒱₀ L lv 0) (R1 : Pipeline.RegionSeg (pcfgs (F := F)) adm pdats () defs₀ 𝒱₀ L lv 1)

abbrev segs : List (Pipeline.Seg (pcfgs (F := F)) adm pdats () defs₀ 𝒱₀ L lv) :=
  [ .host (hseg hostOps0 hostOps0_sub lines_fresh.1 (V0 m)),
    .host (hseg hostOps0_1 hostOps0_1_sub lines_fresh.2.1 (V1 m)),
    .host (hseg hostOps0_2 hostOps0_2_sub lines_fresh.2.2.1 (V2 m)),
    .host (hseg hostOps0_3 hostOps0_3_sub lines_fresh.2.2.2.1 (V3 m)),
    .host (hseg hostOps0_4 hostOps0_4_sub lines_fresh.2.2.2.2.1 (V4 m)),
    .host (hseg hostOps0_5 hostOps0_5_sub lines_fresh.2.2.2.2.2.1 (V5 m)),
    .host (hseg hostOps0_6 hostOps0_6_sub lines_fresh.2.2.2.2.2.2.1 (V6 m)),
    .region R0,
    .host (hseg hostOps1 hostOps1_sub lines_fresh.2.2.2.2.2.2.2.1 X8),
    .host (hseg hostOps1_1 hostOps1_1_sub lines_fresh.2.2.2.2.2.2.2.2.1 (V9 X8)),
    .host (hseg hostOps1_2 hostOps1_2_sub lines_fresh.2.2.2.2.2.2.2.2.2.1 (V10 X8)),
    .region R1,
    .host (hseg hostOps2 hostOps2_sub lines_fresh.2.2.2.2.2.2.2.2.2.2 X12) ]

theorem main_run (c : Dev nD) : main (F := F) c = Pipeline.Seg.run (segs m X8 X12 pdats R0 R1) :=
  (main_chain c).trans (by chain_rfl)
end Run

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand
end
-- ==== Proof.FrameLibRun.lean ====
import Idealize.ShloMosaic.Lib.Pipeline.FrameBody
import Idealize.ShloMosaic.Lib.Pipeline.RegionsLoop
import Idealize.ShloMosaic.Lib.Pipeline.FrameSuffix
import Idealize.ShloMosaic.Lib.Tactic
noncomputable section
namespace Cert.FrameLib
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg cellOf pin)
variable {nD : ℕ} {τ : Topo} {sig : RefSig} {Val : EltTy → Type} {Λ₀ : Labels} {P : Type}
local notation "𝕄" => MT nD τ sig Unit Val ℕ (UR sig nD τ) ℕ

abbrev idle (c : Dev nD) : sProp 𝕄 :=
  iprop((∃ r, prngReg c r) ∗ ∃ W, owes (c : Thread nD τ) (0 : CellTallies nD τ sig Unit) W)

section Exit
variable {cfg : Cfg sig Λ₀} {c : Dev nD} (d : Dat τ Val Unit ℕ (UR sig nD τ) ℕ cfg c) (V : Valuation τ sig Val)

def exitVal : Valuation τ sig Val := Pipeline.withArrays cfg.spec c V fun w => d.arrAt w cfg.N

theorem exitVal_arr (hinj : Function.Injective (Pipeline.arrRef cfg.spec)) (w : Fin cfg.W) :
    exitVal d V (Proc.devRef .tc (Pipeline.arrRef cfg.spec w)) = d.arrAt w cfg.N :=
  Pipeline.withArrays_arr cfg.spec hinj c _ _ w

theorem exitVal_off (b : Ref sig .tc) (hb : ∀ w, Pipeline.arrRef cfg.spec w ≠ b) :
    exitVal d V (Proc.devRef .tc b) = V (Proc.devRef .tc b) :=
  Pipeline.withArrays_of_ne cfg.spec c _ _ b hb

theorem exitVal_of_in (hinj : Function.Injective (Pipeline.arrRef cfg.spec))
    (hA : ∀ w, d.A w = V (Proc.devRef .tc (Pipeline.arrRef cfg.spec w))) (b : Ref sig .tc)
    (hb : ∀ w, Pipeline.arrRef cfg.spec w = b → (cfg.win w).isOut = false) :
    exitVal d V (Proc.devRef .tc b) = V (Proc.devRef .tc b) := by
  by_cases h : ∃ w, Pipeline.arrRef cfg.spec w = b
  · obtain ⟨w, rfl⟩ := h
    rw [exitVal_arr d V hinj, d.arrAt_in w (hb w rfl), hA]
  · exact exitVal_off d V b fun w e => h ⟨w, e⟩
end Exit

set_option backward.isDefEq.respectTransparency.types false in

def heldRegion (pcs : P → Pipeline.PCfg sig Λ₀ Val) (a : (p : P) → (pcs p).Adm)
    (pdats : (p : P) → (c : Dev nD) → Dat τ Val Unit ℕ (UR sig nD τ) ℕ (pin pcs a p) c)
    (defs₀ : Defs nD τ sig Val Λ₀) (𝒱₀ : Variants) (L : GSem nD τ sig → Finset Unit) (lv : GSem nD τ sig → Unit → ℕ) {p : P}
    (hw : Pipeline.WinFacts (pin pcs a p).spec)
    (hbp : ∀ w : Fin (pin pcs a p).W, 0 < ((pin pcs a p).spec w).block.numel)
    (harr : ∀ w, ((pin pcs a p).spec w).arr.IsWhole)
    (hst : ∀ (w : Fin (pin pcs a p).W) (s : Fin ((pin pcs a p).spec w).nbuf), (((pin pcs a p).spec w).stage s).IsWhole)
    (hb : ∀ c, Pipeline.BodyObligationLoose (pdats p c) defs₀ 𝒱₀ () Set.univ)
    (W : Dev nD → Valuation τ sig Val)
    (hK : (pcs p).pre.K = 0)
    (hq : ∀ c w, (pdats p c).q w = fullShare)
    (hA : ∀ c w, (pdats p c).A w = W c (Proc.devRef .tc (Pipeline.arrRef (pin pcs a p).spec w)))
    (ho : ∀ c t, (pdats p c).owed t = 0)
    (hrec : ∀ c, (pdats p c).recorded 0 = Set.univ)
    (hΦ : ∀ c t, (pdats p c).Φ t = Pipeline.ΦA (pin pcs a p).spec c) :
    Pipeline.RegionSeg pcs a pdats () defs₀ 𝒱₀ L lv p where
  win := hw.to₀
  block_pos := hbp
  stage_whole := hst
  K := PEmpty
  osem k := k.elim
  ho := Pipeline.OwnSemFacts.none _
  hbody := hb
  hwaits := Pipeline.hwaits_of_owed_zero _ _ _ _ L lv p ho
  pre c := iprop(StableHlo.held (c : Thread nD τ) (Pipeline.ucRefs τ sig) (W c) ∗ idle c)
  post c := iprop(StableHlo.held (c : Thread nD τ) (Pipeline.ucRefs τ sig) (exitVal (pdats p c) (W c)) ∗ idle c)
  X c := iprop(∃ r, prngReg c r)
  Y c := iprop(∃ r, prngReg c r)
  Z c := Pipeline.unscopedRest (Ix := Unit) (Name := ℕ) (U := UR sig nD τ) (Lvl := ℕ) (pin pcs a p).spec c (fun b => W c (Proc.devRef .tc b))
  hentry c := by
    have hsplit := Pipeline.arrays_of_unscopedBufs pcs a pdats hw harr c ((pdats p c).share_full (hq c)) (fun b => W c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr
    · unfold Pipeline.prefHeld; haveI : IsEmpty (Fin (pcs p).pre.K) := hK ▸ Fin.isEmpty
      rw [Finset.univ_eq_empty, BI.bigSep_empty]; iempintro
    isplitl [HO]
    · unfold Pipeline.Dat.owesAt Pipeline.owesWithin
      icases HO with ⟨%W₁, HO⟩; iexists W₁; isplitr; · ipureintro; exact fun x _ => Or.inl (hrec c ▸ trivial)
      rw [ho c 0]; iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays pcs a (Ix := Unit) (Name := ℕ) (U := UR sig nD τ) (Lvl := ℕ)
      hw harr c pdats ((pdats p c).share_full (hq c))
      (fun b => W c (Proc.devRef .tc b)) (fun b => exitVal (pdats p c) (W c) (Proc.devRef .tc b)) ((pdats p c).arrAt · (pin pcs a p).N)
      (fun w => (exitVal_arr _ _ hw.arr_inj w).symm)
      fun b hb => exitVal_off _ _ b fun w e => hb (Finset.mem_image.mpr ⟨w, Finset.mem_univ _, e⟩)
    rw [Pipeline.unscopedBufs_held] at hjoin
    unfold Pipeline.Dat.owesAt Pipeline.owesWithin
    rw [ho c (Fin.last _)]
    iintro ⟨Ha, HO, HY, Hrest⟩
    imodintro
    isplitl [Ha Hrest]
    · iapply hjoin; isplitl [Ha] <;> iassumption
    isplitl [HY]; · iexact HY
    icases HO with ⟨%W₁, -, HO⟩; iexists W₁; iexact HO

section Run
variable [DecidableEq P] [Fintype P] [∀ e, Nonempty (Val e)]
  {pcs : P → Pipeline.PCfg sig Λ₀ Val} {a : (p : P) → (pcs p).Adm}
  {pdats : (p : P) → (c : Dev nD) → Dat τ Val Unit ℕ (UR sig nD τ) ℕ (pin pcs a p) c}
  {defs₀ : Defs nD τ sig Val Λ₀} {𝒱₀ : Variants} {L : GSem nD τ sig → Finset Unit} {lv : GSem nD τ sig → Unit → ℕ}

theorem chains_mono {T' T'' : Dev nD → sProp 𝕄} (h : ∀ c, T' c ⊢ T'' c) :
    ∀ {l : List (Pipeline.Seg pcs a pdats () defs₀ 𝒱₀ L lv)} {T : Dev nD → sProp 𝕄},
      Pipeline.Seg.Chains T l T' → Pipeline.Seg.Chains T l T''
  | [], _, hc => fun c => (hc c).trans (h c)
  | _ :: _, _, ⟨h₁, h₂⟩ => ⟨h₁, chains_mono h h₂⟩

theorem run_held (phinj : Function.Injective (cellOf (nD := nD) (τ := τ) (pin pcs a))) (hL : ∀ g : GSem nD τ sig, g.1.2 ≠ .tc → L g = ∅)
    (m : (ℓ : Loc nD τ sig) → Buf Val ℓ) (ρ : Dev nD → PrngReg)
    (main : Dev nD → Prog (TpuEff nD τ sig Val (Pipeline.Sig Λ₀ P fun p => (pcs p).Adm) .tc) PUnit)
    (segs : List (Pipeline.Seg pcs a pdats () defs₀ 𝒱₀ L lv)) (hmain : ∀ c, main c = Pipeline.Seg.run segs)
    (hnd : (Pipeline.Seg.pipes segs).Nodup) (Vₙ : Dev nD → Valuation τ sig Val)
    (hch : Pipeline.Seg.Chains (fun c => iprop(StableHlo.held (c : Thread nD τ) (Pipeline.ucRefs τ sig) (fun b => m (c, b)) ∗ idle c)) segs
      fun c => iprop(StableHlo.held (c : Thread nD τ) (Pipeline.ucRefs τ sig) (Vₙ c) ∗ idle c)) :
    θ_run (Pipeline.defs pcs defs₀) (onTc (τ := τ) main) ⟨m, fun _ => 0, ρ⟩
      (fun r => ∀ c : Dev nD, ∀ b ∈ Pipeline.ucRefs τ sig, r.2.mem ((c : Thread nD τ).1, b) = Vₙ c b) := by
  exact Pipeline.θ_run_regions_kit pcs a pdats () phinj emb₁ defs₀ 𝒱₀ L lv m ρ main segs
    (fun c Q => by rw [hmain c]) hnd
    (O₀ := 0) (hL := hL) (G := fun _ => iprop(emp))
    (u₀ := initOf (Pipeline.cells (pin pcs a) phinj) (Pipeline.launchToks (pin pcs a) phinj))
    (hu₀ := by
      iintro Hu; imodintro
      isplitl [Hu]
      · iapply (show (ownU (initOf (Pipeline.cells (pin pcs a) phinj) (Pipeline.launchToks (pin pcs a) phinj)) : sProp 𝕄)
            ⊢ BI.own (emb₁ (initOf (Pipeline.cells (pin pcs a) phinj) (Pipeline.launchToks (pin pcs a) phinj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ idle c))
    (Tₙ := fun c => iprop(StableHlo.held (c : Thread nD τ) (Pipeline.ucRefs τ sig) (Vₙ c) ∗ ∃ r, prngReg c r))
    (hch := chains_mono (fun c => by
        iintro ⟨Hh, Hp, HO⟩
        isplitr [HO]
        · isplitl [Hh] <;> iassumption
        · iexact HO) hch)
    (hinit := by
      refine Pipeline.initEach L lv fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = Vₙ c b)
    (hfin := fun c s' => by
      iintro ⟨⟨Hh, -⟩, HSI⟩
      unfold StableHlo.held
      imodintro
      iapply (pointsTo_read_all (Pipeline.ucRefs τ sig) (fun b => ((c : Thread nD τ).1, b)) (Vₙ c) s')
      isplitl [Hh] <;> iassumption)
    (hQ := fun s h c => h c)
end Run

end Cert.FrameLib
end
-- ==== Proof.KRegs.lean ====
import proofs.«404624_j46557445488821_3_alg».proof.Proof.Gen.Kernel.Launch
import proofs.«404624_j46557445488821_3_alg».proof.Proof.Gen.Kernel.Skeleton
import proofs.«404624_j46557445488821_3_alg».proof.Proof.Gen.Kernel.Points
import proofs.«404624_j46557445488821_3_alg».proof.Proof.KRegion0
import proofs.«404624_j46557445488821_3_alg».proof.Proof.KRegion1
import proofs.«404624_j46557445488821_3_alg».proof.Proof.KHostSide
import proofs.«404624_j46557445488821_3_alg».proof.Proof.FrameLibRun
import Idealize.ShloMosaic.Lib.Pipeline.FrameBody
import Idealize.ShloMosaic.Lib.Pipeline.RegionsLoop
import Idealize.ShloMosaic.Lib.Pipeline.FrameSuffix
import Idealize.ShloMosaic.Lib.Tactic
set_option maxRecDepth 16384
noncomputable section
namespace Cert.Kernel.Hand
open Cert.Kernel Cert.Kernel.Gen
open Idealize.ShloMosaic Idealize.ShloMosaic.TcCoe
open Idealize.ShloMosaic.Pipeline (Dat)
variable {F : FTy → Type} [FloatOps F]

def pdats (Va Vb : (c : Dev nD) → (b : Ref sig .tc) → Buf (Elt F) ((c : Thread nD τ).loc b)) :
    (p : Fin 2) → (c : Dev nD) → Dat τ (Elt F) Unit ℕ (UR sig nD τ) ℕ (Pipeline.pin (pcfgs (F := F)) adm p) c
  | ⟨0, _⟩ => fun c => dat0 Va c
  | ⟨1, _⟩ => fun c => dat1 Vb c

def Wexit0 (Wa : Dev nD → Valuation τ sig (Elt F)) (c : Dev nD) : Valuation τ sig (Elt F) :=
  FrameLib.exitVal (dat0 (fun c b => Wa c b) c) (Wa c)

theorem Wexit0_out (Wa : Dev nD → Valuation τ sig (Elt F)) (c : Dev nD) :
    Wexit0 Wa c (Proc.devRef .tc main_v51) = (dat0 (fun c b => Wa c b) c).arrAt 5 cfg0.N :=
  FrameLib.exitVal_arr _ _ launch0.win.arr_inj 5

theorem Wexit0_of_ne (Wa : Dev nD → Valuation τ sig (Elt F)) (c : Dev nD) (b : Ref sig .tc) (hb : b ≠ main_v51) :
    Wexit0 Wa c (Proc.devRef .tc b) = Wa c (Proc.devRef .tc b) :=
  FrameLib.exitVal_of_in _ _ launch0.win.arr_inj (A_eq0 _ c) b fun w e => by
    subst e; revert hb; fin_cases w <;> intro hb <;> first | rfl | exact absurd rfl hb

def Wexit1 (Wb : Dev nD → Valuation τ sig (Elt F)) (c : Dev nD) : Valuation τ sig (Elt F) :=
  FrameLib.exitVal (dat1 (fun c b => Wb c b) c) (Wb c)

theorem Wexit1_out (Wb : Dev nD → Valuation τ sig (Elt F)) (c : Dev nD) :
    Wexit1 Wb c (Proc.devRef .tc main_v118) = (dat1 (fun c b => Wb c b) c).arrAt 4 cfg1.N :=
  FrameLib.exitVal_arr _ _ launch1.win.arr_inj 4

theorem Wexit1_of_ne (Wb : Dev nD → Valuation τ sig (Elt F)) (c : Dev nD) (b : Ref sig .tc) (hb : b ≠ main_v118) :
    Wexit1 Wb c (Proc.devRef .tc b) = Wb c (Proc.devRef .tc b) :=
  FrameLib.exitVal_of_in _ _ launch1.win.arr_inj (A_eq1 _ c) b fun w e => by
    subst e; revert hb; fin_cases w <;> intro hb <;> first | rfl | exact absurd rfl hb

def reg0 (Wa : Dev nD → Valuation τ sig (Elt F)) (Vb : (c : Dev nD) → (b : Ref sig .tc) → Buf (Elt F) ((c : Thread nD τ).loc b)) :
    Pipeline.RegionSeg (pcfgs (F := F)) adm (pdats (fun c b => Wa c b) Vb) () defs₀ 𝒱₀ L lv 0 :=
  FrameLib.heldRegion _ _ _ _ _ _ _ launch0.win launch0.block_pos launch0.arr_whole launch0.stage_whole
    (fun c => (body_obligation0 (fun c b => Wa c b) c).loose) Wa rfl (fun _ _ => rfl) (fun _ _ => rfl) (fun _ _ => rfl)
    (fun _ => rfl) fun _ _ => rfl

def reg1 (Va : (c : Dev nD) → (b : Ref sig .tc) → Buf (Elt F) ((c : Thread nD τ).loc b)) (Wb : Dev nD → Valuation τ sig (Elt F)) :
    Pipeline.RegionSeg (pcfgs (F := F)) adm (pdats Va (fun c b => Wb c b)) () defs₀ 𝒱₀ L lv 1 :=
  FrameLib.heldRegion _ _ _ _ _ _ _ launch1.win launch1.block_pos launch1.arr_whole launch1.stage_whole
    (fun c => (body_obligation1 (fun c b => Wb c b) c).loose) Wb rfl (fun _ _ => rfl) (fun _ _ => rfl) (fun _ _ => rfl)
    (fun _ => rfl) fun _ _ => rfl

end Cert.Kernel.Hand
end
-- ==== Proof.KRun.lean ====
import proofs.«404624_j46557445488821_3_alg».proof.Proof.KRegs
set_option maxRecDepth 16384
noncomputable section
namespace Cert.Kernel.Hand
open Cert.Kernel Cert.Kernel.Gen
open Idealize.ShloMosaic Idealize.ShloMosaic.TcCoe
variable {F : FTy → Type} [FloatOps F]
variable (m : (ℓ : Loc nD τ sig) → Buf (Elt F) ℓ)

abbrev X8 : Dev nD → Valuation τ sig (Elt F) := Wexit0 (V7 m)
abbrev X12 : Dev nD → Valuation τ sig (Elt F) := Wexit1 (V11 (X8 m))
abbrev Vb : (c : Dev nD) → (b : Ref sig .tc) → Buf (Elt F) ((c : Thread nD τ).loc b) := fun c b => V11 (X8 m) c b

set_option backward.isDefEq.respectTransparency.types false in
theorem run_main (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = V13 (X12 m) c b) :=
  FrameLib.run_held cellOf_inj (fun _ _ => rfl) m ρ main _
    (main_run m (X8 m) (X12 m) (pdats (fun c b => V7 m c b) (Vb m)) (reg0 (V7 m) (Vb m)) (reg1 (fun c b => V7 m c b) (V11 (X8 m))))
    (by simp only [segs, Pipeline.Seg.pipes_host, Pipeline.Seg.pipes_region, Pipeline.Seg.pipes_nil]; decide) (V13 (X12 m))
    (by repeat' first | exact fun _ => .rfl | constructor)

theorem arg_ne {a b : Ref sig .tc} (ha : a ∈ argRefs) (hb : b ∉ argRefs) : a ≠ b := fun e => hb (e ▸ ha)

theorem final_arg (c : Dev nD) (a : Ref sig .tc) (ha : a ∈ argRefs) :
    V13 (X12 m) c (Proc.devRef .tc a) = m ((c : Thread nD τ).loc a) :=
  (V13_arg (X12 m) c a ha).trans <| (Wexit1_of_ne (V11 (X8 m)) c a (arg_ne ha (by decide))).trans <|
    (V11_arg (X8 m) c a ha).trans <| (Wexit0_of_ne (V7 m) c a (arg_ne ha (by decide))).trans (V7_arg m c a ha)

theorem arg_unscoped : ∀ a ∈ argRefs, ¬ (Proc.devRef .tc a : DevRef τ sig).isScoped := by decide

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)) :=
  (θ_run defs _ _).mono (fun r h c => (List.forall_iff_forall_mem (l := argRefs)
      (p := fun a => r.2.mem ((c.tc : Thread nD τ).loc a) = m ((c.tc : Thread nD τ).loc a))).mpr fun a ha =>
    (h c _ (mem_uc a (arg_unscoped a ha))).trans (final_arg m c a ha)) (run_main m ρ)

end Cert.Kernel.Hand
end
-- ==== Proof.KIRegion0.lean ====
import proofs.«404624_j46557445488821_3_alg».proof.Proof.Gen.KernelIdeal.Launch
import proofs.«404624_j46557445488821_3_alg».proof.Proof.Gen.KernelIdeal.Skeleton
import proofs.«404624_j46557445488821_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
variable {F : FTy → Type} [FloatOps F] [Named F]
local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

-- The tile's column maximum at point `t` joined to `a`.
def upd0 (c : Dev nD) (t : Fin cfg0.N) (a : Vec F S1x1x128 .f32) : Vec F S1x1x128 .f32 :=
  k0_pay2 (iblk0 V c 0 t) (iblk0 V c 1 t) (iblk0 V c 2 t) (iblk0 V c 3 t) (iblk0 V c 4 t) a

-- The running maximum after point `n`: it restarts from the initial value at the first point of each group of 25.
def acc0 (c : Dev nD) : ℕ → Vec F S1x1x128 .f32
  | 0 => if hn : 0 < cfg0.N then upd0 V c ⟨0, hn⟩ (k0_pay1 (F := F)) else k0_pay1 (F := F)
  | n + 1 => if hn : n + 1 < cfg0.N then upd0 V c ⟨n + 1, hn⟩ (if (n + 1) % 25 = 0 then k0_pay1 (F := F) else acc0 c n) else acc0 c n

theorem acc0_at (c : Dev nD) (t : Fin cfg0.N) :
    acc0 V c t.val = upd0 V c t (if t.val % 25 = 0 then k0_pay1 (F := F) else acc0 V c (t.val - 1)) := by
  obtain ⟨_ | n, hn⟩ := t <;> rw [acc0, dif_pos hn] <;> rfl

theorem acc0_reset (c : Dev nD) (n : ℕ) (hn : n < cfg0.N) (h : n % 25 = 0) :
    acc0 V c n = k0_pay2 (iblk0 V c 0 ⟨n, hn⟩) (iblk0 V c 1 ⟨n, hn⟩) (iblk0 V c 2 ⟨n, hn⟩) (iblk0 V c 3 ⟨n, hn⟩) (iblk0 V c 4 ⟨n, hn⟩) (k0_pay1 (F := F)) := by
  rw [acc0_at V c ⟨n, hn⟩, if_pos h, upd0]

theorem acc0_step (c : Dev nD) (n : ℕ) (hn : n + 1 < cfg0.N) (h : (n + 1) % 25 ≠ 0) :
    acc0 V c (n + 1) = k0_pay2 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (acc0 V c n) := by
  rw [acc0_at V c ⟨n + 1, hn⟩, if_neg h, upd0]; rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => acc0 V c t.val
  Φ _ := Pipeline.ΦA spec0 c
  q _ := fullShare
  owed _ := 0

theorem A_eq0 (c : Dev nD) (w : Fin cfg0.W) : (dat0 V c).A w = V c (Pipeline.arrRef spec0 w) := by
  dsimp only [dat0]

theorem before0_in (c : Dev nD) (t : Fin cfg0.N) :
    (∀ d, (dat0 V c).before 0 t d = iblk0 V c 0 t) ∧ (∀ d, (dat0 V c).before 1 t d = iblk0 V c 1 t)
      ∧ (∀ d, (dat0 V c).before 2 t d = iblk0 V c 2 t) ∧ (∀ d, (dat0 V c).before 3 t d = iblk0 V c 3 t)
      ∧ (∀ d, (dat0 V c).before 4 t d = iblk0 V c 4 t) := by
  refine ⟨?_, ?_, ?_, ?_, ?_⟩ <;>
    exact fun d => ((dat0 V c).before_in_eq_fetched _ rfl (fun _ => rfl) (fun _ _ _ => rfl) (fun _ => rfl) t d).trans rfl

abbrev cond0 (i : grid0.Coords) : Prop :=
  (Scalar.cmpi .ne (Scalar.extui (Scalar.cmpi .eq (BitVec.ofNat 32 (i 1).val) 0#32)) 0#32) = 1#1

theorem hcond0 : ∀ t : Fin cfg0.N, cond0 (grid0.coords t) ↔ t.val % 25 = 0 :=
  (by decide +kernel : ∀ t : Fin grid0.N, cond0 (grid0.coords t) ↔ t.val % 25 = 0)

private theorem hz2 : (![0, 0] : Fin 2 → Nat) = fun _ => 0 := by decide
private theorem hz3 : (![0, 0, 0] : Fin 3 → Nat) = fun _ => 0 := by decide

-- One update, from the initial value at a group's first point and else from the point before, gives the running maximum.
theorem acc0_eq (c : Dev nD) (t : Fin cfg0.N) (d) :
    upd0 V c t (if cond0 (grid0.coords t) then k0_pay1 (F := F) else (dat0 V c).before 5 t d) = acc0 V c t.val := by
  rw [acc0_at]
  by_cases h0 : t.val % 25 = 0
  · rw [if_pos h0, if_pos ((hcond0 t).mpr h0)]
  · rw [if_neg h0, if_neg (mt (hcond0 t).mp h0), Dat.before_out_kept _ 5 rfl t (fun e => h0 (by rw [e]))
      (Bool.eq_false_iff.mpr fun h => by have := (flush0_5 _).mp h; dsimp only at this; omega) (fun _ => rfl) fun _ _ => rfl]
    dsimp only [dat0]

set_option maxHeartbeats 1000000 in
theorem body_obligation0 (c : Dev nD) : BodyObligation (dat0 (F := F) V c) (defs₀ (F := F)) Variants.none () Set.univ := fun t => by
  rw [bigSep_W0, bigSep_W0]
  obtain ⟨b0, b1, b2, b3, b4⟩ := before0_in V c t
  simp only [b0, b1, b2, b3, b4]
  show _ ⊢ wp _ _ _ (bodyAt0 t) _
  simp only [bodyAt0, cc0__group_max_kernel_eq_skeleton]; unfold cc0__group_max_kernel_skel
  unfold owns
  by_cases hc : cond0 (grid0.coords t)
  all_goals
    iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩⟩
    sl_exec (disch := first | exact hc)
    sl_step
    dsimp only [dat0]
    isplitl [HΦ]; · iexact HΦ
    isplitl [Ho]; · iexact Ho
    isplitl [H0]; · iexists f0; isplitr; ipureintro; exact hf0; iexact H0
    isplitl [H1]; · iexists f1; isplitr; ipureintro; exact hf1; iexact H1
    isplitl [H2]; · iexists f2; isplitr; ipureintro; exact hf2; iexact H2
    isplitl [H3]; · iexists f3; isplitr; ipureintro; exact hf3; iexact H3
    isplitl [H4]; · iexists f4; isplitr; ipureintro; exact hf4; iexact H4
    iexists _; isplitr
    swap; · iexact H5
    ipureintro
    refine Eq.trans ?_ (acc0_eq V c t d5)
    first | rw [if_pos hc] | rw [if_neg hc]
    sl_unfold_words
    rw [View.read_writes_eq_canon _ _ _ fun y => ⟨_, List.mem_cons.mpr (Or.inl rfl), View.mem_set_unit_zero (S := S1x1x128) hz3 inb_S1x1x128_S1x1x128_0_0_0 y⟩]
    simp only [upd0, ← hf0, ← hf1, ← hf2, ← hf3, ← hf4, ← hf5, View.canon_cons_unit_zero (S := S1x1x128) hz3,
      View.readCov_unit_zero (S := S1x1x128) _ hz3, View.readAt_eq_ld,
      View.ld_unit_zero (S := S1x8192x8) hz3, View.ld_unit_zero (S := S128x8) hz2, View.ld_unit_zero (S := S1x128) hz2,
      View.ld_unit_zero (S := S1x128x128) hz3, View.ld_unit_zero (S := S1x1x128) hz3]

end Cert.KernelIdeal.Hand
end
-- ==== Proof.KIRegion1.lean ====
import proofs.«404624_j46557445488821_3_alg».proof.Proof.Gen.KernelIdeal.Launch
import proofs.«404624_j46557445488821_3_alg».proof.Proof.Gen.KernelIdeal.Skeleton
import proofs.«404624_j46557445488821_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
variable {F : FTy → Type} [FloatOps F] [Named F]
local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

private theorem hz2 : (![0, 0] : Fin 2 → Nat) = fun _ => 0 := by decide
private theorem hz3 : (![0, 0, 0] : Fin 3 → Nat) = fun _ => 0 := by decide

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay1 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_4 (c : Dev nD) (t : Fin cfg1.N) :
    (dat1 V c).after 4 t = k1_pay1 (iblk1 V c 0 t) (iblk1 V c 1 t) (iblk1 V c 2 t) (iblk1 V c 3 t) := by dsimp only [dat1]

theorem before1_in (c : Dev nD) (t : Fin cfg1.N) :
    (∀ d, (dat1 V c).before 0 t d = iblk1 V c 0 t) ∧ (∀ d, (dat1 V c).before 1 t d = iblk1 V c 1 t)
      ∧ (∀ d, (dat1 V c).before 2 t d = iblk1 V c 2 t) ∧ (∀ d, (dat1 V c).before 3 t d = iblk1 V c 3 t) := by
  refine ⟨?_, ?_, ?_, ?_⟩ <;>
    exact fun d => ((dat1 V c).before_in_eq_fetched _ rfl (fun _ => rfl) (fun _ _ _ => rfl) (fun _ => rfl) t d).trans rfl

theorem body_obligation1 (c : Dev nD) : BodyObligation (dat1 (F := F) V c) (defs₀ (F := F)) Variants.none () Set.univ := fun t => by
  rw [bigSep_W1, bigSep_W1]
  obtain ⟨b0, b1, b2, b3⟩ := before1_in V c t
  simp only [b0, b1, b2, b3]
  show _ ⊢ wp _ _ _ (bodyAt1 t) _
  simp only [bodyAt1, cc1__attn_logits_kernel_eq_skeleton]; unfold cc1__attn_logits_kernel_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, -, H4⟩⟩
  sl_exec
  sl_step
  dsimp only [dat1]
  isplitl [HΦ]; · iexact HΦ
  isplitl [Ho]; · iexact Ho
  isplitl [H0]; · iexists f0; isplitr; ipureintro; exact hf0; iexact H0
  isplitl [H1]; · iexists f1; isplitr; ipureintro; exact hf1; iexact H1
  isplitl [H2]; · iexists f2; isplitr; ipureintro; exact hf2; iexact H2
  isplitl [H3]; · iexists f3; isplitr; ipureintro; exact hf3; iexact H3
  iexists _; isplitr
  swap; · iexact H4
  ipureintro
  sl_unfold_words
  refine Eq.trans (View.read_writes_eq_canon _ _ _ fun y => ⟨_, List.mem_singleton_self _,
    View.mem_set_unit_zero (S := S1x1x8192) hz3 inb_S1x1x8192_S1x1x8192_0_0_0 y⟩) ?_
  rw [View.canon_unit_zero (S := S1x1x8192) hz3]
  simp only [← hf0, ← hf1, ← hf2, ← hf3, View.readAt_eq_ld, View.ld_unit_zero (S := S1x8192x8) hz3, View.ld_unit_zero (S := S128x8) hz2,
    View.ld_unit_zero (S := S1x128) hz2, View.ld_unit_zero (S := S1x1x128) hz3]

end Cert.KernelIdeal.Hand
end
-- ==== Proof.KIHostSide.lean ====
import proofs.«404624_j46557445488821_3_alg».proof.Proof.Gen.KernelIdeal.Launch
import proofs.«404624_j46557445488821_3_alg».proof.Proof.Gen.KernelIdeal.Skeleton
import proofs.«404624_j46557445488821_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F] [Named F]
local notation "𝕄" => MT nD τ sig Unit (Elt F) ℕ (UR sig nD τ) ℕ

section Vals
variable (m : (ℓ : Loc nD τ sig) → Buf (Elt F) ℓ)

abbrev V0 (c : Dev nD) : Valuation τ sig (Elt F) := fun b => m (c, b)
abbrev V1 (c : Dev nD) : Valuation τ sig (Elt F) := StableHlo.after hostOps0 (V0 m c)
abbrev V2 (c : Dev nD) : Valuation τ sig (Elt F) := StableHlo.after hostOps0_1 (V1 m c)
abbrev V3 (c : Dev nD) : Valuation τ sig (Elt F) := StableHlo.after hostOps0_2 (V2 m c)
abbrev V4 (c : Dev nD) : Valuation τ sig (Elt F) := StableHlo.after hostOps0_3 (V3 m c)
abbrev V5 (c : Dev nD) : Valuation τ sig (Elt F) := StableHlo.after hostOps0_4 (V4 m c)
abbrev V6 (c : Dev nD) : Valuation τ sig (Elt F) := StableHlo.after hostOps0_5 (V5 m c)

abbrev V7 (c : Dev nD) : Valuation τ sig (Elt F) := StableHlo.after hostOps0_6 (V6 m c)

variable (X8 : Dev nD → Valuation τ sig (Elt F))
abbrev V9 (c : Dev nD) : Valuation τ sig (Elt F) := StableHlo.after hostOps1 (X8 c)
abbrev V10 (c : Dev nD) : Valuation τ sig (Elt F) := StableHlo.after hostOps1_1 (V9 X8 c)

abbrev V11 (c : Dev nD) : Valuation τ sig (Elt F) := StableHlo.after hostOps1_2 (V10 X8 c)

variable (X12 : Dev nD → Valuation τ sig (Elt F))

abbrev V13 (c : Dev nD) : Valuation τ sig (Elt F) := StableHlo.after hostOps2 (X12 c)
end Vals

abbrev adm : (p : Fin 2) → (pcfgs (F := F) p).Adm := fun p => (cfgs p).toPCfg_adm
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29, main_arg30, main_arg31, main_arg32]

def NoArgWrite (ops : List (HloOp τ sig (Elt F))) : Prop :=
  ops.Forall fun op => ∃ y : Ref sig .tc, op.writes = {Proc.devRef .tc y} ∧ y ∉ argRefs

theorem after_arg {ops : List (HloOp τ sig (Elt F))} (h : NoArgWrite ops) (V : Valuation τ sig (Elt F)) {a : Ref sig .tc}
    (ha : a ∈ argRefs) : StableHlo.after ops V (Proc.devRef .tc a) = V (Proc.devRef .tc a) :=
  StableHlo.after_of_forall_not_mem ops V fun op hop hb => by
    obtain ⟨y, hy, hn⟩ := (List.forall_iff_forall_mem.mp h) op hop
    rw [hy, Finset.mem_singleton] at hb
    exact hn (Proc.devRef_injective _ hb ▸ ha)

abbrev Fresh (ops : List (HloOp τ sig (Elt F))) : Prop := ops.Forall fun op => op.fresh = ∅

theorem lines_noArg : List.Forall NoArgWrite ([hostOps0, hostOps0_1, hostOps0_2, hostOps0_3, hostOps0_4, hostOps0_5, hostOps2] : List (List (HloOp τ sig (Elt F)))) := by
  repeat' first | exact ⟨_, rfl, by decide⟩ | constructor
theorem hostOps0_6_noArg : NoArgWrite (hostOps0_6 : List (HloOp τ sig (Elt F))) := by
  repeat' first | exact ⟨_, rfl, by decide⟩ | constructor
theorem hostOps1_noArg : NoArgWrite (hostOps1 : List (HloOp τ sig (Elt F))) := by
  repeat' first | exact ⟨_, rfl, by decide⟩ | constructor
theorem hostOps1_1_noArg : NoArgWrite (hostOps1_1 : List (HloOp τ sig (Elt F))) := by
  repeat' first | exact ⟨_, rfl, by decide⟩ | constructor
theorem hostOps1_2_noArg : NoArgWrite (hostOps1_2 : List (HloOp τ sig (Elt F))) := by
  repeat' first | exact ⟨_, rfl, by decide⟩ | constructor
theorem lines_fresh : List.Forall Fresh ([hostOps0, hostOps0_1, hostOps0_2, hostOps0_3, hostOps0_4, hostOps0_5, hostOps0_6, hostOps1, hostOps1_1, hostOps1_2, hostOps2] : List (List (HloOp τ sig (Elt F)))) := by
  repeat' constructor

section Args
variable (m : (ℓ : Loc nD τ sig) → Buf (Elt F) ℓ) (X8 X12 : Dev nD → Valuation τ sig (Elt F))

theorem V7_arg (c : Dev nD) (a : Ref sig .tc) (ha : a ∈ argRefs) : V7 m c (Proc.devRef .tc a) = m ((c : Thread nD τ).loc a) :=
  (after_arg hostOps0_6_noArg _ ha).trans <| (after_arg lines_noArg.2.2.2.2.2.1 _ ha).trans <| (after_arg lines_noArg.2.2.2.2.1 _ ha).trans <|
    (after_arg lines_noArg.2.2.2.1 _ ha).trans <| (after_arg lines_noArg.2.2.1 _ ha).trans <| (after_arg lines_noArg.2.1 _ ha).trans <|
    (after_arg lines_noArg.1 _ ha).trans rfl

theorem V11_arg (c : Dev nD) (a : Ref sig .tc) (ha : a ∈ argRefs) : V11 X8 c (Proc.devRef .tc a) = X8 c (Proc.devRef .tc a) :=
  (after_arg hostOps1_2_noArg _ ha).trans <| (after_arg hostOps1_1_noArg _ ha).trans <| after_arg hostOps1_noArg _ ha

theorem V13_arg (c : Dev nD) (a : Ref sig .tc) (ha : a ∈ argRefs) : V13 X12 c (Proc.devRef .tc a) = X12 c (Proc.devRef .tc a) :=
  after_arg lines_noArg.2.2.2.2.2.2 _ ha
end Args

abbrev hseg (ops : List (HloOp τ sig (Elt F))) (hsub : ops.Forall fun op => op.bufs ⊆ StableHlo.tcRefs τ sig)
    (hfresh : Fresh ops) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

section Run
variable (m : (ℓ : Loc nD τ sig) → Buf (Elt F) ℓ) (X8 X12 : Dev nD → Valuation τ sig (Elt F))
variable (pdats : (p : Fin 2) → (c : Dev nD) → Dat τ (Elt F) Unit ℕ (UR sig nD τ) ℕ (Pipeline.pin (pcfgs (F := F)) adm p) c)
variable (R0 : Pipeline.RegionSeg (pcfgs (F := F)) adm pdats () defs₀ 𝒱₀ L lv 0) (R1 : Pipeline.RegionSeg (pcfgs (F := F)) adm pdats () defs₀ 𝒱₀ L lv 1)

abbrev segs : List (Pipeline.Seg (pcfgs (F := F)) adm pdats () defs₀ 𝒱₀ L lv) :=
  [ .host (hseg hostOps0 hostOps0_sub lines_fresh.1 (V0 m)),
    .host (hseg hostOps0_1 hostOps0_1_sub lines_fresh.2.1 (V1 m)),
    .host (hseg hostOps0_2 hostOps0_2_sub lines_fresh.2.2.1 (V2 m)),
    .host (hseg hostOps0_3 hostOps0_3_sub lines_fresh.2.2.2.1 (V3 m)),
    .host (hseg hostOps0_4 hostOps0_4_sub lines_fresh.2.2.2.2.1 (V4 m)),
    .host (hseg hostOps0_5 hostOps0_5_sub lines_fresh.2.2.2.2.2.1 (V5 m)),
    .host (hseg hostOps0_6 hostOps0_6_sub lines_fresh.2.2.2.2.2.2.1 (V6 m)),
    .region R0,
    .host (hseg hostOps1 hostOps1_sub lines_fresh.2.2.2.2.2.2.2.1 X8),
    .host (hseg hostOps1_1 hostOps1_1_sub lines_fresh.2.2.2.2.2.2.2.2.1 (V9 X8)),
    .host (hseg hostOps1_2 hostOps1_2_sub lines_fresh.2.2.2.2.2.2.2.2.2.1 (V10 X8)),
    .region R1,
    .host (hseg hostOps2 hostOps2_sub lines_fresh.2.2.2.2.2.2.2.2.2.2 X12) ]

theorem main_run (c : Dev nD) : main (F := F) c = Pipeline.Seg.run (segs m X8 X12 pdats R0 R1) :=
  (main_chain c).trans (by chain_rfl)
end Run

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand
end
-- ==== Proof.KIRegs.lean ====
import proofs.«404624_j46557445488821_3_alg».proof.Proof.Gen.KernelIdeal.Launch
import proofs.«404624_j46557445488821_3_alg».proof.Proof.Gen.KernelIdeal.Skeleton
import proofs.«404624_j46557445488821_3_alg».proof.Proof.Gen.KernelIdeal.Points
import proofs.«404624_j46557445488821_3_alg».proof.Proof.KIRegion0
import proofs.«404624_j46557445488821_3_alg».proof.Proof.KIRegion1
import proofs.«404624_j46557445488821_3_alg».proof.Proof.KIHostSide
import proofs.«404624_j46557445488821_3_alg».proof.Proof.FrameLibRun
import Idealize.ShloMosaic.Lib.Pipeline.FrameBody
import Idealize.ShloMosaic.Lib.Pipeline.RegionsLoop
import Idealize.ShloMosaic.Lib.Pipeline.FrameSuffix
import Idealize.ShloMosaic.Lib.Tactic
set_option maxRecDepth 16384
noncomputable section
namespace Cert.KernelIdeal.Hand
open Cert.KernelIdeal Cert.KernelIdeal.Gen
open Idealize.ShloMosaic Idealize.ShloMosaic.TcCoe
open Idealize.ShloMosaic.Pipeline (Dat)
variable {F : FTy → Type} [FloatOps F] [Named F]

def pdats (Va Vb : (c : Dev nD) → (b : Ref sig .tc) → Buf (Elt F) ((c : Thread nD τ).loc b)) :
    (p : Fin 2) → (c : Dev nD) → Dat τ (Elt F) Unit ℕ (UR sig nD τ) ℕ (Pipeline.pin (pcfgs (F := F)) adm p) c
  | ⟨0, _⟩ => fun c => dat0 Va c
  | ⟨1, _⟩ => fun c => dat1 Vb c

def Wexit0 (Wa : Dev nD → Valuation τ sig (Elt F)) (c : Dev nD) : Valuation τ sig (Elt F) :=
  FrameLib.exitVal (dat0 (fun c b => Wa c b) c) (Wa c)

theorem Wexit0_out (Wa : Dev nD → Valuation τ sig (Elt F)) (c : Dev nD) :
    Wexit0 Wa c (Proc.devRef .tc main_v51) = (dat0 (fun c b => Wa c b) c).arrAt 5 cfg0.N :=
  FrameLib.exitVal_arr _ _ launch0.win.arr_inj 5

theorem Wexit0_of_ne (Wa : Dev nD → Valuation τ sig (Elt F)) (c : Dev nD) (b : Ref sig .tc) (hb : b ≠ main_v51) :
    Wexit0 Wa c (Proc.devRef .tc b) = Wa c (Proc.devRef .tc b) :=
  FrameLib.exitVal_of_in _ _ launch0.win.arr_inj (A_eq0 _ c) b fun w e => by
    subst e; revert hb; fin_cases w <;> intro hb <;> first | rfl | exact absurd rfl hb

def Wexit1 (Wb : Dev nD → Valuation τ sig (Elt F)) (c : Dev nD) : Valuation τ sig (Elt F) :=
  FrameLib.exitVal (dat1 (fun c b => Wb c b) c) (Wb c)

theorem Wexit1_out (Wb : Dev nD → Valuation τ sig (Elt F)) (c : Dev nD) :
    Wexit1 Wb c (Proc.devRef .tc main_v118) = (dat1 (fun c b => Wb c b) c).arrAt 4 cfg1.N :=
  FrameLib.exitVal_arr _ _ launch1.win.arr_inj 4

theorem Wexit1_of_ne (Wb : Dev nD → Valuation τ sig (Elt F)) (c : Dev nD) (b : Ref sig .tc) (hb : b ≠ main_v118) :
    Wexit1 Wb c (Proc.devRef .tc b) = Wb c (Proc.devRef .tc b) :=
  FrameLib.exitVal_of_in _ _ launch1.win.arr_inj (A_eq1 _ c) b fun w e => by
    subst e; revert hb; fin_cases w <;> intro hb <;> first | rfl | exact absurd rfl hb

def reg0 (Wa : Dev nD → Valuation τ sig (Elt F)) (Vb : (c : Dev nD) → (b : Ref sig .tc) → Buf (Elt F) ((c : Thread nD τ).loc b)) :
    Pipeline.RegionSeg (pcfgs (F := F)) adm (pdats (fun c b => Wa c b) Vb) () defs₀ 𝒱₀ L lv 0 :=
  FrameLib.heldRegion _ _ _ _ _ _ _ launch0.win launch0.block_pos launch0.arr_whole launch0.stage_whole
    (fun c => (body_obligation0 (fun c b => Wa c b) c).loose) Wa rfl (fun _ _ => rfl) (fun _ _ => rfl) (fun _ _ => rfl)
    (fun _ => rfl) fun _ _ => rfl

def reg1 (Va : (c : Dev nD) → (b : Ref sig .tc) → Buf (Elt F) ((c : Thread nD τ).loc b)) (Wb : Dev nD → Valuation τ sig (Elt F)) :
    Pipeline.RegionSeg (pcfgs (F := F)) adm (pdats Va (fun c b => Wb c b)) () defs₀ 𝒱₀ L lv 1 :=
  FrameLib.heldRegion _ _ _ _ _ _ _ launch1.win launch1.block_pos launch1.arr_whole launch1.stage_whole
    (fun c => (body_obligation1 (fun c b => Wb c b) c).loose) Wb rfl (fun _ _ => rfl) (fun _ _ => rfl) (fun _ _ => rfl)
    (fun _ => rfl) fun _ _ => rfl

end Cert.KernelIdeal.Hand
end
-- ==== Proof.KIRun.lean ====
import proofs.«404624_j46557445488821_3_alg».proof.Proof.KIRegs
set_option maxRecDepth 16384
noncomputable section
namespace Cert.KernelIdeal.Hand
open Cert.KernelIdeal Cert.KernelIdeal.Gen
open Idealize.ShloMosaic Idealize.ShloMosaic.TcCoe
variable {F : FTy → Type} [FloatOps F] [Named F]
variable (m : (ℓ : Loc nD τ sig) → Buf (Elt F) ℓ)

abbrev X8 : Dev nD → Valuation τ sig (Elt F) := Wexit0 (V7 m)
abbrev X12 : Dev nD → Valuation τ sig (Elt F) := Wexit1 (V11 (X8 m))
abbrev Vb : (c : Dev nD) → (b : Ref sig .tc) → Buf (Elt F) ((c : Thread nD τ).loc b) := fun c b => V11 (X8 m) c b

set_option backward.isDefEq.respectTransparency.types false in
theorem run_main (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = V13 (X12 m) c b) :=
  FrameLib.run_held cellOf_inj (fun _ _ => rfl) m ρ main _
    (main_run m (X8 m) (X12 m) (pdats (fun c b => V7 m c b) (Vb m)) (reg0 (V7 m) (Vb m)) (reg1 (fun c b => V7 m c b) (V11 (X8 m))))
    (by simp only [segs, Pipeline.Seg.pipes_host, Pipeline.Seg.pipes_region, Pipeline.Seg.pipes_nil]; decide) (V13 (X12 m))
    (by repeat' first | exact fun _ => .rfl | constructor)

theorem arg_ne {a b : Ref sig .tc} (ha : a ∈ argRefs) (hb : b ∉ argRefs) : a ≠ b := fun e => hb (e ▸ ha)

theorem final_arg (c : Dev nD) (a : Ref sig .tc) (ha : a ∈ argRefs) :
    V13 (X12 m) c (Proc.devRef .tc a) = m ((c : Thread nD τ).loc a) :=
  (V13_arg (X12 m) c a ha).trans <| (Wexit1_of_ne (V11 (X8 m)) c a (arg_ne ha (by decide))).trans <|
    (V11_arg (X8 m) c a ha).trans <| (Wexit0_of_ne (V7 m) c a (arg_ne ha (by decide))).trans (V7_arg m c a ha)

theorem arg_unscoped : ∀ a ∈ argRefs, ¬ (Proc.devRef .tc a : DevRef τ sig).isScoped := by decide

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)) :=
  (θ_run defs _ _).mono (fun r h c => (List.forall_iff_forall_mem (l := argRefs)
      (p := fun a => r.2.mem ((c.tc : Thread nD τ).loc a) = m ((c.tc : Thread nD τ).loc a))).mpr fun a ha =>
    (h c _ (mem_uc a (arg_unscoped a ha))).trans (final_arg m c a ha)) (run_main m ρ)

end Cert.KernelIdeal.Hand
end
-- ==== Proof.LibAgree.lean ====
import Idealize.ShloMosaic.Lib.StableHlo.Run

namespace Idealize.ShloMosaic.StableHlo

variable {τ : Topo} {sig₁ sig₂ : RefSig} {Val : EltTy → Type}

theorem heq_app {A A' B B' : Type} (hA : A = A') (hB : B = B') {f : A → B} {f' : A' → B'} (hf : HEq f f')
    {a : A} {a' : A'} (ha : HEq a a') : HEq (f a) (f' a') := by
  subst hA hB; cases hf; cases ha; rfl

theorem heq_reshape {T₁ T₁' T₂ T₂' : BufTy} (h₁ : T₁ = T₁') (h₂ : T₂ = T₂') (he : T₁.elt = T₂.elt) (he' : T₁'.elt = T₂'.elt)
    (hn : T₁.shape.ShapeCasts T₂.shape) (hn' : T₁'.shape.ShapeCasts T₂'.shape)
    {a : T₁.Contents Val} {a' : T₁'.Contents Val} (ha : HEq a a') :
    HEq (fun i => he ▸ shapeCast T₂.shape a hn i : T₂.Contents Val) (fun i => he' ▸ shapeCast T₂'.shape a' hn' i : T₂'.Contents Val) := by
  subst h₁ h₂; cases ha; rfl

/-- Heterogeneously equal contents at each listed pair of buffers. -/
def Agree (P : List (Ref sig₁ .tc × Ref sig₂ .tc)) (V₁ : Valuation τ sig₁ Val) (V₂ : Valuation τ sig₂ Val) : Prop :=
  ∀ p ∈ P, HEq (V₁ (Proc.devRef .tc p.1)) (V₂ (Proc.devRef .tc p.2))

namespace Agree

variable {P Q : List (Ref sig₁ .tc × Ref sig₂ .tc)} {V₁ : Valuation τ sig₁ Val} {V₂ : Valuation τ sig₂ Val}

theorem nil : Agree (τ := τ) (Val := Val) ([] : List (Ref sig₁ .tc × Ref sig₂ .tc)) V₁ V₂ := fun _ h => absurd h List.not_mem_nil

theorem cons {a : Ref sig₁ .tc} {a' : Ref sig₂ .tc} (h : HEq (V₁ (Proc.devRef .tc a)) (V₂ (Proc.devRef .tc a')))
    (t : Agree P V₁ V₂) : Agree ((a, a') :: P) V₁ V₂ := fun p hp => by
  rcases List.mem_cons.mp hp with rfl | hp
  · exact h
  · exact t p hp

theorem get (h : Agree P V₁ V₂) {a : Ref sig₁ .tc} {a' : Ref sig₂ .tc} (hin : (a, a') ∈ P) :
    HEq (V₁ (Proc.devRef .tc a)) (V₂ (Proc.devRef .tc a')) := h (a, a') hin

theorem mono (h : Agree P V₁ V₂) (hQ : Q ⊆ P) : Agree Q V₁ V₂ := fun p hp => h p (hQ hp)

/-- An operation of the first side that writes one buffer no listed pair names keeps the agreement. -/
theorem writeL (h : Agree P V₁ V₂) {op : HloOp τ sig₁ Val} {y : Ref sig₁ .tc}
    (hw : op.writes = {Proc.devRef .tc y}) (hy : y ∉ P.map Prod.fst) : Agree P (op.result V₁) V₂ := fun p hp => by
  rw [op.result_of_not_mem V₁ (by
    rw [hw, Finset.mem_singleton]
    exact devRef_ne_of_ne fun e => hy (e ▸ List.mem_map_of_mem (f := Prod.fst) hp))]
  exact h p hp

theorem writeR (h : Agree P V₁ V₂) {op' : HloOp τ sig₂ Val} {y' : Ref sig₂ .tc}
    (hw' : op'.writes = {Proc.devRef .tc y'}) (hy' : y' ∉ P.map Prod.snd) : Agree P V₁ (op'.result V₂) := fun p hp => by
  rw [op'.result_of_not_mem V₂ (by
    rw [hw', Finset.mem_singleton]
    exact devRef_ne_of_ne fun e => hy' (e ▸ List.mem_map_of_mem (f := Prod.snd) hp))]
  exact h p hp

theorem write (h : Agree P V₁ V₂) {op : HloOp τ sig₁ Val} {op' : HloOp τ sig₂ Val} {y : Ref sig₁ .tc} {y' : Ref sig₂ .tc}
    (hw : op.writes = {Proc.devRef .tc y}) (hw' : op'.writes = {Proc.devRef .tc y'})
    (hy : y ∉ P.map Prod.fst) (hy' : y' ∉ P.map Prod.snd)
    (hres : HEq (op.result V₁ (Proc.devRef .tc y)) (op'.result V₂ (Proc.devRef .tc y'))) :
    Agree ((y, y') :: P) (op.result V₁) (op'.result V₂) := cons hres ((h.writeL hw hy).writeR hw' hy')

end Agree

/-- Running the two lines carries agreement on `P` to agreement on `Q`. -/
def Sim (P : List (Ref sig₁ .tc × Ref sig₂ .tc)) (ops : List (HloOp τ sig₁ Val)) (ops' : List (HloOp τ sig₂ Val))
    (Q : List (Ref sig₁ .tc × Ref sig₂ .tc)) : Prop :=
  ∀ (V₁ : Valuation τ sig₁ Val) (V₂ : Valuation τ sig₂ Val), Agree P V₁ V₂ → Agree Q (after ops V₁) (after ops' V₂)

namespace Sim

variable {P P' Q : List (Ref sig₁ .tc × Ref sig₂ .tc)} {ops : List (HloOp τ sig₁ Val)} {ops' : List (HloOp τ sig₂ Val)}

theorem done (hQ : Q ⊆ P) : Sim (τ := τ) (Val := Val) P [] [] Q := fun _ _ h => h.mono hQ

/-- Pairs no later operation reads may be forgotten at once. -/
theorem pre (P' : List (Ref sig₁ .tc × Ref sig₂ .tc)) (hP : P' ⊆ P) (k : Sim P' ops ops' Q) : Sim P ops ops' Q :=
  fun _ _ h => k _ _ (h.mono hP)

theorem step {op : HloOp τ sig₁ Val} {op' : HloOp τ sig₂ Val}
    (hstep : ∀ (V₁ : Valuation τ sig₁ Val) (V₂ : Valuation τ sig₂ Val), Agree P V₁ V₂ → Agree P' (op.result V₁) (op'.result V₂))
    (k : Sim P' ops ops' Q) : Sim P (op :: ops) (op' :: ops') Q := fun V₁ V₂ h => k _ _ (hstep V₁ V₂ h)

theorem skipL {op : HloOp τ sig₁ Val} {y : Ref sig₁ .tc} (hw : op.writes = {Proc.devRef .tc y}) (hy : y ∉ P.map Prod.fst)
    (k : Sim P ops ops' Q) : Sim P (op :: ops) ops' Q := fun _ _ h => k _ _ (h.writeL hw hy)

theorem skipR {op' : HloOp τ sig₂ Val} {y' : Ref sig₂ .tc} (hw' : op'.writes = {Proc.devRef .tc y'}) (hy' : y' ∉ P.map Prod.snd)
    (k : Sim P ops ops' Q) : Sim P ops (op' :: ops') Q := fun _ _ h => k _ _ (h.writeR hw' hy')

variable {x a b y : Ref sig₁ .tc} {x' a' b' y' : Ref sig₂ .tc}

theorem nullary {v : y.ty.Contents Val} {v' : y'.ty.Contents Val} {hy hy'}
    (hv : HEq v v') (hfy : y ∉ P.map Prod.fst) (hfy' : y' ∉ P.map Prod.snd)
    (k : Sim ((y, y') :: P) ops ops' Q) :
    Sim P (StableHlo.nullary (τ := τ) y v hy :: ops) (StableHlo.nullary (τ := τ) y' v' hy' :: ops') Q :=
  step (fun V₁ V₂ h => h.write rfl rfl hfy hfy' (by rw [nullary_result, nullary_result]; exact hv)) k

theorem unary {f : x.ty.Contents Val → y.ty.Contents Val} {f' : x'.ty.Contents Val → y'.ty.Contents Val} {hx hy hx' hy'}
    (hin : (x, x') ∈ P) (htx : x.ty = x'.ty) (hty : y.ty = y'.ty) (hf : HEq f f')
    (hfy : y ∉ P.map Prod.fst) (hfy' : y' ∉ P.map Prod.snd)
    (k : Sim ((y, y') :: P) ops ops' Q) :
    Sim P (StableHlo.unary (τ := τ) x y f hx hy :: ops) (StableHlo.unary (τ := τ) x' y' f' hx' hy' :: ops') Q :=
  step (fun V₁ V₂ h => h.write rfl rfl hfy hfy' (by
    rw [unary_result, unary_result]
    exact heq_app (congrArg (BufTy.Contents Val) htx) (congrArg (BufTy.Contents Val) hty) hf (h.get hin))) k

theorem binary {f : a.ty.Contents Val → b.ty.Contents Val → y.ty.Contents Val}
    {f' : a'.ty.Contents Val → b'.ty.Contents Val → y'.ty.Contents Val} {ha hb hy ha' hb' hy'}
    (hina : (a, a') ∈ P) (hinb : (b, b') ∈ P) (hta : a.ty = a'.ty) (htb : b.ty = b'.ty) (hty : y.ty = y'.ty) (hf : HEq f f')
    (hfy : y ∉ P.map Prod.fst) (hfy' : y' ∉ P.map Prod.snd)
    (k : Sim ((y, y') :: P) ops ops' Q) :
    Sim P (StableHlo.binary (τ := τ) a b y f ha hb hy :: ops) (StableHlo.binary (τ := τ) a' b' y' f' ha' hb' hy' :: ops') Q :=
  step (fun V₁ V₂ h => h.write rfl rfl hfy hfy' (by
    rw [binary_result, binary_result]
    have hB := congrArg (BufTy.Contents Val) htb
    have hY := congrArg (BufTy.Contents Val) hty
    exact heq_app hB hY
      (heq_app (congrArg (BufTy.Contents Val) hta) (by rw [hB, hY]) hf (h.get hina)) (h.get hinb))) k

theorem reshape {he hn hx hy he' hn' hx' hy'}
    (hin : (x, x') ∈ P) (htx : x.ty = x'.ty) (hty : y.ty = y'.ty)
    (hfy : y ∉ P.map Prod.fst) (hfy' : y' ∉ P.map Prod.snd)
    (k : Sim ((y, y') :: P) ops ops' Q) :
    Sim P (StableHlo.reshape (τ := τ) (Val := Val) x y he hn hx hy :: ops) (StableHlo.reshape (τ := τ) (Val := Val) x' y' he' hn' hx' hy' :: ops') Q :=
  step (fun V₁ V₂ h => h.write rfl rfl hfy hfy' (by
    rw [reshape_result, reshape_result]
    exact heq_reshape htx hty he he' hn hn' (h.get hin))) k

end Sim

/-- One operation of the same builder on both sides, or one that a single side has. -/
macro "s_nul" : tactic => `(tactic| refine Sim.nullary HEq.rfl (by decide) (by decide) ?_)
macro "s_un" : tactic => `(tactic| refine Sim.unary (by decide) rfl rfl HEq.rfl (by decide) (by decide) ?_)
macro "s_bin" : tactic => `(tactic| refine Sim.binary (by decide) (by decide) rfl rfl rfl HEq.rfl (by decide) (by decide) ?_)
macro "s_resh" : tactic => `(tactic| refine Sim.reshape (by decide) rfl rfl (by decide) (by decide) ?_)
macro "s_skL" : tactic => `(tactic| refine Sim.skipL (hw := rfl) (by decide) ?_)
macro "s_skR" : tactic => `(tactic| refine Sim.skipR (hw' := rfl) (by decide) ?_)

end Idealize.ShloMosaic.StableHlo
-- ==== Proof.RefRun.lean ====
import proofs.«404624_j46557445488821_3_alg».proof.Proof.RefOps
import Idealize.ShloMosaic.Lib.StableHlo.Run

noncomputable section

namespace Cert.Ref

open Cert.ReferenceIdeal Idealize.ShloMosaic Idealize.ShloMosaic.TcCoe Idealize.SL.Sem Idealize.ShloMosaic.StableHlo

variable {F : FTy → Type} [FloatOps F]

abbrev ops : List (HloOp τ sig (Elt F)) := Cert.ReferenceIdeal.RunP.ops

abbrev RA : List (HloOp τ sig (Elt F)) := (ops (F := F)).take 39
abbrev RB : List (HloOp τ sig (Elt F)) := ((ops (F := F)).drop 39).take 33
abbrev RC : List (HloOp τ sig (Elt F)) := ((ops (F := F)).drop 72).take 57
abbrev RD : List (HloOp τ sig (Elt F)) := ((ops (F := F)).drop 129).take 2
abbrev RE : List (HloOp τ sig (Elt F)) := (ops (F := F)).drop 131

theorem ops_split : (ops (F := F)) = RA ++ (RB ++ (RC ++ (RD ++ RE))) := by
  have e1 : ((ops (F := F)).drop 39).drop 33 = (ops (F := F)).drop 72 := by rw [List.drop_drop]
  have e2 : ((ops (F := F)).drop 72).drop 57 = (ops (F := F)).drop 129 := by rw [List.drop_drop]
  have e3 : ((ops (F := F)).drop 129).drop 2 = (ops (F := F)).drop 131 := by rw [List.drop_drop]
  unfold RA RB RC RD RE
  rw [← e3, List.take_append_drop, ← e2, List.take_append_drop, ← e1, List.take_append_drop, List.take_append_drop]

theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq Cert.ReferenceIdeal.RunP.scopedRefs_eq Cert.ReferenceIdeal.RunP.scopedSems_eq defs main (fun _ => ops) Cert.ReferenceIdeal.RunP.main_eq
    (fun _ => Cert.ReferenceIdeal.RunP.ops_sub) m ρ

end Cert.Ref

end
-- ==== Proof.KILock.lean ====
import proofs.«404624_j46557445488821_3_alg».proof.Proof.LibAgree
import proofs.«404624_j46557445488821_3_alg».proof.Proof.RefRun
import proofs.«404624_j46557445488821_3_alg».proof.Proof.Gen.KernelIdeal.Launch

noncomputable section

namespace Cert.Lock

open Idealize.ShloMosaic Idealize.ShloMosaic.StableHlo

abbrev Pairs : Type := List (Ref Cert.KernelIdeal.sig .tc × Ref Cert.ReferenceIdeal.sig .tc)

abbrev P0 : Pairs :=
  [(Cert.KernelIdeal.main_arg0, Cert.ReferenceIdeal.main_arg0),
   (Cert.KernelIdeal.main_arg1, Cert.ReferenceIdeal.main_arg1),
   (Cert.KernelIdeal.main_arg2, Cert.ReferenceIdeal.main_arg2),
   (Cert.KernelIdeal.main_arg3, Cert.ReferenceIdeal.main_arg3),
   (Cert.KernelIdeal.main_arg4, Cert.ReferenceIdeal.main_arg4),
   (Cert.KernelIdeal.main_arg5, Cert.ReferenceIdeal.main_arg5),
   (Cert.KernelIdeal.main_arg6, Cert.ReferenceIdeal.main_arg6),
   (Cert.KernelIdeal.main_arg7, Cert.ReferenceIdeal.main_arg7),
   (Cert.KernelIdeal.main_arg8, Cert.ReferenceIdeal.main_arg8),
   (Cert.KernelIdeal.main_arg9, Cert.ReferenceIdeal.main_arg9),
   (Cert.KernelIdeal.main_arg10, Cert.ReferenceIdeal.main_arg10),
   (Cert.KernelIdeal.main_arg11, Cert.ReferenceIdeal.main_arg11),
   (Cert.KernelIdeal.main_arg12, Cert.ReferenceIdeal.main_arg12),
   (Cert.KernelIdeal.main_arg13, Cert.ReferenceIdeal.main_arg13),
   (Cert.KernelIdeal.main_arg14, Cert.ReferenceIdeal.main_arg14),
   (Cert.KernelIdeal.main_arg15, Cert.ReferenceIdeal.main_arg15),
   (Cert.KernelIdeal.main_arg16, Cert.ReferenceIdeal.main_arg16),
   (Cert.KernelIdeal.main_arg17, Cert.ReferenceIdeal.main_arg17),
   (Cert.KernelIdeal.main_arg18, Cert.ReferenceIdeal.main_arg18),
   (Cert.KernelIdeal.main_arg19, Cert.ReferenceIdeal.main_arg19),
   (Cert.KernelIdeal.main_arg20, Cert.ReferenceIdeal.main_arg20),
   (Cert.KernelIdeal.main_arg21, Cert.ReferenceIdeal.main_arg21),
   (Cert.KernelIdeal.main_arg22, Cert.ReferenceIdeal.main_arg22),
   (Cert.KernelIdeal.main_arg23, Cert.ReferenceIdeal.main_arg23),
   (Cert.KernelIdeal.main_arg24, Cert.ReferenceIdeal.main_arg24),
   (Cert.KernelIdeal.main_arg25, Cert.ReferenceIdeal.main_arg25),
   (Cert.KernelIdeal.main_arg26, Cert.ReferenceIdeal.main_arg26),
   (Cert.KernelIdeal.main_arg27, Cert.ReferenceIdeal.main_arg27),
   (Cert.KernelIdeal.main_arg28, Cert.ReferenceIdeal.main_arg28),
   (Cert.KernelIdeal.main_arg29, Cert.ReferenceIdeal.main_arg29),
   (Cert.KernelIdeal.main_arg30, Cert.ReferenceIdeal.main_arg30),
   (Cert.KernelIdeal.main_arg31, Cert.ReferenceIdeal.main_arg31),
   (Cert.KernelIdeal.main_arg32, Cert.ReferenceIdeal.main_arg32)]

abbrev QA : Pairs :=
  (Cert.KernelIdeal.main_v4, Cert.ReferenceIdeal.main_v4) :: (Cert.KernelIdeal.main_v15, Cert.ReferenceIdeal.main_v15) :: (Cert.KernelIdeal.main_v17, Cert.ReferenceIdeal.main_v17) :: (Cert.KernelIdeal.main_v28, Cert.ReferenceIdeal.main_v28) :: (Cert.KernelIdeal.main_v30, Cert.ReferenceIdeal.main_v30) :: P0

abbrev QC : Pairs := (Cert.KernelIdeal.main_v53, Cert.ReferenceIdeal.main_v43) :: (Cert.KernelIdeal.main_v55, Cert.ReferenceIdeal.main_v56) :: QA

abbrev QC' : Pairs :=
  (Cert.KernelIdeal.main_v100, Cert.ReferenceIdeal.main_v102) :: (Cert.KernelIdeal.main_v92, Cert.ReferenceIdeal.main_v94) :: (Cert.KernelIdeal.main_v104, Cert.ReferenceIdeal.main_v106) :: (Cert.KernelIdeal.main_v15, Cert.ReferenceIdeal.main_v15) :: (Cert.KernelIdeal.main_v28, Cert.ReferenceIdeal.main_v28) :: P0

abbrev QE : Pairs := (Cert.KernelIdeal.main_v131, Cert.ReferenceIdeal.main_v108) :: QC'

abbrev OUT1 : Pairs :=
  [(Cert.KernelIdeal.main_v157, Cert.ReferenceIdeal.main_v123), (Cert.KernelIdeal.main_v172, Cert.ReferenceIdeal.main_v138), (Cert.KernelIdeal.main_v187, Cert.ReferenceIdeal.main_v153), (Cert.KernelIdeal.main_v188, Cert.ReferenceIdeal.main_v165), (Cert.KernelIdeal.main_v189, Cert.ReferenceIdeal.main_v166)]

abbrev OUT2 : Pairs := [(Cert.KernelIdeal.main_v142, Cert.ReferenceIdeal.main_v164)]

variable {F : FTy → Type} [FloatOps F] [Named F]

open Cert.KernelIdeal.Gen in
abbrev KA : List (HloOp Cert.KernelIdeal.τ Cert.KernelIdeal.sig (Elt F)) :=
  hostOps0 ++ (hostOps0_1 ++ (hostOps0_2 ++ (hostOps0_3 ++ (hostOps0_4 ++ (hostOps0_5 ++ (hostOps0_6 (F := F)).take 8)))))
open Cert.KernelIdeal.Gen in
abbrev KB1 : List (HloOp Cert.KernelIdeal.τ Cert.KernelIdeal.sig (Elt F)) := (hostOps0_6 (F := F)).drop 8
open Cert.KernelIdeal.Gen in
abbrev KB2 : List (HloOp Cert.KernelIdeal.τ Cert.KernelIdeal.sig (Elt F)) := (hostOps1 (F := F)).take 4
open Cert.KernelIdeal.Gen in
abbrev KC : List (HloOp Cert.KernelIdeal.τ Cert.KernelIdeal.sig (Elt F)) := (hostOps1 (F := F)).drop 4 ++ (hostOps1_1 ++ (hostOps1_2 (F := F)).take 49)
open Cert.KernelIdeal.Gen in
abbrev KD1 : List (HloOp Cert.KernelIdeal.τ Cert.KernelIdeal.sig (Elt F)) := (hostOps1_2 (F := F)).drop 49
open Cert.KernelIdeal.Gen in
abbrev KD2 : List (HloOp Cert.KernelIdeal.τ Cert.KernelIdeal.sig (Elt F)) := (hostOps2 (F := F)).take 13
open Cert.KernelIdeal.Gen in
abbrev KE : List (HloOp Cert.KernelIdeal.τ Cert.KernelIdeal.sig (Elt F)) := (hostOps2 (F := F)).drop 13

end Cert.Lock

end
-- ==== Proof.KIChain.lean ====
import proofs.«404624_j46557445488821_3_alg».proof.Proof.KIRun
import proofs.«404624_j46557445488821_3_alg».proof.Proof.KILock

noncomputable section

namespace Idealize.ShloMosaic.StableHlo

variable {τ : Topo} {sig₁ sig₂ : RefSig} {Val : EltTy → Type}

theorem Agree.congr_left {P : List (Ref sig₁ .tc × Ref sig₂ .tc)} {V₁ V₁' : Valuation τ sig₁ Val} {V₂ : Valuation τ sig₂ Val}
    (h : Agree P V₁ V₂) (e : ∀ p ∈ P, V₁' (Proc.devRef .tc p.1) = V₁ (Proc.devRef .tc p.1)) : Agree P V₁' V₂ :=
  fun p hp => by rw [e p hp]; exact h p hp

/-- A line cut in two anywhere is the line. -/
theorem after_take_drop (n : ℕ) (l : List (HloOp τ sig₁ Val)) (V : Valuation τ sig₁ Val) :
    after (l.drop n) (after (l.take n) V) = after l V := by
  rw [← after_append, List.take_append_drop]

end Idealize.ShloMosaic.StableHlo

namespace Cert.Lock

open Idealize.ShloMosaic Idealize.ShloMosaic.TcCoe Idealize.ShloMosaic.StableHlo
open Cert.KernelIdeal Cert.KernelIdeal.Gen Cert.KernelIdeal.Hand

variable {F : FTy → Type} [FloatOps F] [Named F]
variable (m : (ℓ : Loc nD τ sig) → Buf (Elt F) ℓ) (c : Dev nD)

theorem V7_cut : V7 m c = after (KB1 (F := F)) (after (KA (F := F)) (V0 m c)) := by
  simp only [KA, KB1, StableHlo.after_append, after_take_drop]

theorem V11_cut (X8 : Dev nD → Valuation τ sig (Elt F)) :
    V11 X8 c = after (KD1 (F := F)) (after (KC (F := F)) (after (KB2 (F := F)) (X8 c))) := by
  simp only [KC, KD1, KB2, StableHlo.after_append, after_take_drop]

theorem V13_cut (X12 : Dev nD → Valuation τ sig (Elt F)) :
    V13 X12 c = after (KE (F := F)) (after (KD2 (F := F)) (X12 c)) := by
  simp only [KE, KD2, after_take_drop]

end Cert.Lock

namespace Cert.Ref

open Idealize.ShloMosaic Idealize.ShloMosaic.StableHlo Cert.ReferenceIdeal

variable {F : FTy → Type} [FloatOps F]

theorem after_ops_cut (V : Valuation τ sig (Elt F)) :
    after (ops (F := F)) V = after RE (after RD (after RC (after RB (after RA V)))) := by
  rw [ops_split (F := F)]
  simp only [StableHlo.after_append]

end Cert.Ref

end
-- ==== Proof.KISpec.lean ====
import Mathlib.Data.EReal.Basic
import Mathlib.Data.EReal.Operations
import Mathlib.Algebra.BigOperators.Ring.Finset
import Mathlib.Algebra.BigOperators.Fin
import Mathlib.Data.Finset.Lattice.Fold
import Mathlib.Data.Finset.Fold
import Mathlib.Data.Fintype.Basic
import Mathlib.Tactic.Ring

namespace Cert.Spec

noncomputable section

open Finset

def hid {N : ℕ} (X : Fin N → Fin 8 → EReal) (Wb : Fin 128 → Fin 8 → EReal) (bb : Fin 128 → EReal)
    (r : Fin N) (k : Fin 128) : EReal :=
  max (∑ i : Fin 8, X r i * Wb k i + bb k) 0

def emb {N : ℕ} (X : Fin N → Fin 8 → EReal) (Wb : Fin 128 → Fin 8 → EReal) (bb : Fin 128 → EReal)
    (Wg : Fin 128 → Fin 128 → EReal) (bg : Fin 128 → EReal) (r : Fin N) (j : Fin 128) : EReal :=
  ∑ k : Fin 128, hid X Wb bb r k * Wg j k + bg j

def padRow (r : Fin 204800) : Fin 200000 :=
  ⟨if r.val < 200000 then r.val else r.val - 200000, by
    have := r.isLt
    split <;> omega⟩

/-- Every row is its own image under the padding, so repeating rows leaves a supremum unchanged. -/
theorem sup_pad (f : Fin 200000 → EReal) :
    (Finset.univ.sup fun r : Fin 204800 => f (padRow r)) = Finset.univ.sup f := by
  refine le_antisymm (Finset.sup_le fun r _ => Finset.le_sup (f := f) (Finset.mem_univ _)) (Finset.sup_le fun r' _ => ?_)
  refine le_trans (le_of_eq (congrArg f (Fin.ext ?_)))
    (Finset.le_sup (f := fun r => f (padRow r)) (Finset.mem_univ ⟨r'.val, by have := r'.isLt; omega⟩))
  simp [padRow, r'.isLt]

theorem fold_max_bot {ι : Type} [Fintype ι] (g : ι → EReal) :
    (Finset.univ : Finset ι).fold max ⊥ g = Finset.univ.sup g := rfl

/-- Row r lies in tile r / 8192 at position r % 8192. -/
theorem sup_tiles (f : Fin 204800 → EReal) :
    Finset.univ.sup f = Finset.univ.sup fun t : Fin 25 => Finset.univ.sup fun r : Fin 8192 =>
      f ⟨8192 * t.val + r.val, by have := t.isLt; have := r.isLt; omega⟩ := by
  refine le_antisymm (Finset.sup_le fun r _ => ?_)
    (Finset.sup_le fun t _ => Finset.sup_le fun r _ => Finset.le_sup (Finset.mem_univ _))
  have hr := r.isLt
  exact Finset.le_sup_of_le (Finset.mem_univ (⟨r.val / 8192, by omega⟩ : Fin 25))
    (Finset.le_sup_of_le (Finset.mem_univ (⟨r.val % 8192, by omega⟩ : Fin 8192))
      (le_of_eq (congrArg f (Fin.ext (by simp only []; omega)))))

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (x y : ℝ) : ((max x y : ℝ) : EReal) = max (x : EReal) (y : EReal) :=
  EReal.coe_strictMono.monotone.map_max

theorem real_add {a b : EReal} (ha : ∃ x : ℝ, a = x) (hb : ∃ x : ℝ, b = x) : ∃ x : ℝ, a + b = x := by
  obtain ⟨x, rfl⟩ := ha
  obtain ⟨y, rfl⟩ := hb
  exact ⟨x + y, (EReal.coe_add x y).symm⟩

theorem real_mul {a b : EReal} (ha : ∃ x : ℝ, a = x) (hb : ∃ x : ℝ, b = x) : ∃ x : ℝ, a * b = x := by
  obtain ⟨x, rfl⟩ := ha
  obtain ⟨y, rfl⟩ := hb
  exact ⟨x * y, (EReal.coe_mul x y).symm⟩

theorem hid_real {N : ℕ} (X : Fin N → Fin 8 → EReal) (Wb : Fin 128 → Fin 8 → EReal)
    (bb : Fin 128 → EReal) (hX : ∀ r i, ∃ x : ℝ, X r i = x) (hW : ∀ k i, ∃ x : ℝ, Wb k i = x)
    (hb : ∀ k, ∃ x : ℝ, bb k = x) (r : Fin N) (k : Fin 128) : ∃ x : ℝ, hid X Wb bb r k = x := by
  choose x hx using hX
  choose w hw using hW
  choose b hb using hb
  refine ⟨max (∑ i, x r i * w k i + b k) 0, ?_⟩
  rw [coe_max, EReal.coe_add, coe_sum, EReal.coe_zero, hid, hb]
  simp only [EReal.coe_mul, hx, hw]

/-- For finite reals the sums may be exchanged and the products distributed. -/
theorem fold_query (a : Fin 128 → EReal) (h : Fin 128 → EReal) (Wg : Fin 128 → Fin 128 → EReal)
    (bg : Fin 128 → EReal)
    (ha : ∀ l, ∃ x : ℝ, a l = (x : EReal)) (hh : ∀ k, ∃ x : ℝ, h k = (x : EReal))
    (hW : ∀ l k, ∃ x : ℝ, Wg l k = (x : EReal)) (hb : ∀ l, ∃ x : ℝ, bg l = (x : EReal)) :
    (∑ k : Fin 128, (∑ l : Fin 128, a l * Wg l k) * h k) + ∑ l : Fin 128, a l * bg l
      = ∑ l : Fin 128, a l * (∑ k : Fin 128, h k * Wg l k + bg l) := by
  choose a' ha using ha
  choose h' hh using hh
  choose W' hW using hW
  choose b' hb using hb
  simp only [ha, hh, hW, hb, ← EReal.coe_mul, ← coe_sum, ← EReal.coe_add]
  congr 1
  simp only [mul_add, Finset.mul_sum, Finset.sum_add_distrib, Finset.sum_mul]
  rw [Finset.sum_comm]
  congr 1
  exact Finset.sum_congr rfl fun l _ => Finset.sum_congr rfl fun k _ => by ring

end

end Cert.Spec
-- ==== Proof.KIPay.lean ====
import proofs.«404624_j46557445488821_3_alg».proof.Proof.Gen.KernelIdeal.Skeleton
import proofs.«404624_j46557445488821_3_alg».proof.Proof.KISpec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

namespace Cert.KernelIdeal.PayVal

open Cert.KernelIdeal Cert.KernelIdeal.Gen Idealize.ShloMosaic Idealize.ShloMosaic.ValueIdx

theorem neg_big : Named.named (F := Ideal) κ "neg_big" (φ := .f32) 0xF149F2CA#32 = (⊥ : EReal) :=
  IdealRules.named_const.ideal_named_scalar _ _ _ _ rfl

theorem pay1_apply (y : S1x1x128.Idx) : k0_pay1 (F := Ideal) y = (⊥ : EReal) := by
  obtain ⟨a, b, c, rfl⟩ : ∃ (a : Fin 1) (b : Fin 1) (c : Fin 128), y = ix3 a b c := ⟨y 0, y 1, y 2, eq_ix3 y⟩
  unfold k0_pay1
  rw [shapeCast_ab_1ab_apply, broadcast_apply]
  exact neg_big

/-- The contraction index has one coordinate; the sum is re-indexed by it. -/
theorem matmulT_apply {M K N : ℕ} {φ₁ φ₂ : FTy} (l : FVec Ideal ⟨2, ![M, K]⟩ φ₁) (r : FVec Ideal ⟨2, ![N, K]⟩ φ₂)
    (p : Fin M) (c : Fin N) :
    matmul (DotDims.transposedRhs M K N) none l r (constant (F := Ideal) ⟨2, ![M, N]⟩ .f32 0x00000000#32) (ix2 p c)
      = ∑ k : Fin K, l (ix2 p k) * r (ix2 c k) := by
  simp only [matmul]
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  congr 2 <;> funext a <;> apply Fin.ext <;> match a with
    | ⟨0, _⟩ => simp [DotDims.lhsIdx, DotDims.rhsIdx, DotDims.transposedRhs]; rfl
    | ⟨1, _⟩ => simp [DotDims.lhsIdx, DotDims.rhsIdx, DotDims.transposedRhs]; exact hk

/-- The fold of max starts at the bottom element, so it is the supremum. -/
theorem colmax_apply (x : FVec Ideal S8192x128 .f32) (h : S8192x128.Reduces [0] S128) (hφ : FKind.Formats .f32)
    (hacc : (0xFF800000#32 : BitVec 32) = 0xFF800000#32) (j : Fin 128) :
    multiReduction (F := Ideal) .maximumf [0] S128 x 0xFF800000#32 h hφ hacc (ix1 j)
      = Finset.univ.sup fun r : Fin 8192 => x (ix2 r j) := by
  refine (Ideal.multiReduction_maximumf_single x 0xFF800000#32 h hφ hacc (ix1 j)).trans ?_
  have hf : (x ∘ h.lift (ix1 j)) = fun k : Fin 8192 => x (ix2 k j) :=
    funext fun k => congrArg x (funext fun c => Fin.ext (by fin_cases c <;> rfl))
  show (Finset.univ : Finset (Fin 8192)).fold max (Ideal.ofBits .f32 0xFF800000#32) (x ∘ h.lift (ix1 j)) = _
  rw [hf, show Ideal.ofBits .f32 0xFF800000#32 = (⊥ : EReal) by simp [Ideal.ofBits, Ideal.ieee]]
  exact Cert.Spec.fold_max_bot _

theorem hid_apply (v3 : FVec Ideal S1x8192x8 .bf16) (v5 : FVec Ideal S128x8 .bf16) (v8 : FVec Ideal S1x128 .f32)
    (h1 : S1x8192x8.ShapeCasts S8192x8) (h2 : S128x8.ShapeCasts S128x8) (h3 : S1x128.ShapeCasts S1x128)
    (h4 : S1x128.Broadcasts S8192x128) (r : Fin 8192) (k : Fin 128) :
    maximumf (addf (matmul dot_S8192x8_S128x8_S8192x128_1_1_0_0_n_n none (shapeCast S8192x8 v3 h1) (shapeCast S128x8 v5 h2)
          (constant (F := Ideal) S8192x128 .f32 0x00000000#32))
        (broadcastTo S8192x128 (shapeCast S1x128 v8 h3) h4))
      (broadcast S8192x128 (Scalar.ofBits (F := Ideal) .f32 0x00000000#32)) (ix2 r k)
      = max (∑ i : Fin 8, v3 (ix3 0 r i) * v5 (ix2 k i) + v8 (ix2 0 k)) 0 := by
  rw [maximumf_apply, addf_apply, broadcastTo_1b_ab_apply, broadcast_apply, shapeCast_self, shapeCast_self]
  refine (congrArg₂ max (congrArg (· + _) ((matmulT_apply _ _ r k).trans ?_)) Ideal.ofBits_zero_f32)
  exact Finset.sum_congr rfl fun i _ => by rw [shapeCast_1ab_ab_apply]

theorem pay2_apply (v3 : Vec Ideal S1x8192x8 .bf16) (v5 : Vec Ideal S128x8 .bf16) (v8 : Vec Ideal S1x128 .f32)
    (v14 : Vec Ideal S1x128x128 .bf16) (v18 : Vec Ideal S1x1x128 .f32) (v24 : Vec Ideal S1x1x128 .f32) (j : Fin 128) :
    k0_pay2 v3 v5 v8 v14 v18 v24 (ix3 (0 : Fin 1) (0 : Fin 1) j)
      = max (v24 (ix3 0 0 j)) (Finset.univ.sup fun r : Fin 8192 =>
          (∑ k : Fin 128, max (∑ i : Fin 8, v3 (ix3 0 r i) * v5 (ix2 k i) + v8 (ix2 0 k)) 0 * v14 (ix3 0 j k))
            + v18 (ix3 0 0 j)) := by
  unfold k0_pay2
  rw [shapeCast_ab_1ab_apply, maximumf_apply, shapeCast_1ab_ab_apply, shapeCast_a_1a_apply, colmax_apply]
  refine congrArg (max (v24 (ix3 0 0 j))) (Finset.sup_congr rfl fun r _ => ?_)
  rw [addf_apply, broadcastTo_1b_ab_apply, shapeCast_1ab_ab_apply]
  refine congrArg (· + v18 (ix3 0 0 j)) ((matmulT_apply _ _ r j).trans (Finset.sum_congr rfl fun k _ => ?_))
  rw [truncf_apply, hid_apply, shapeCast_1ab_ab_apply]

theorem pay1k1_apply (v0 : Vec Ideal S1x8192x8 .bf16) (v2 : Vec Ideal S128x8 .bf16) (v5 : Vec Ideal S1x128 .f32)
    (v11 : Vec Ideal S1x1x128 .f32) (n : Fin 8192) :
    k1_pay1 v0 v2 v5 v11 (ix3 (0 : Fin 1) (0 : Fin 1) n)
      = ∑ k : Fin 128, v11 (ix3 0 0 k) * max (∑ i : Fin 8, v0 (ix3 0 n i) * v2 (ix2 k i) + v5 (ix2 0 k)) 0 := by
  unfold k1_pay1
  rw [shapeCast_ab_1ab_apply]
  refine (matmulT_apply _ _ 0 n).trans (Finset.sum_congr rfl fun k _ => ?_)
  rw [truncf_apply, truncf_apply, shapeCast_1ab_ab_apply, hid_apply]

end Cert.KernelIdeal.PayVal

end
-- ==== Proof.KIAcc.lean ====
import proofs.«404624_j46557445488821_3_alg».proof.Proof.Gen.KernelIdeal
import Idealize.ShloMosaic.Lib.ValueIdx

noncomputable section

namespace Cert.KernelIdeal.Acc

open Cert.KernelIdeal Idealize.ShloMosaic Idealize.ShloMosaic.TcCoe Idealize.ShloMosaic.ValueIdx

abbrev Bufs : Type := (c : Dev nD) → (b : Ref sig .tc) → Buf (Elt Ideal) ((c : Thread nD τ).loc b)

variable (V : Bufs) (c : Dev nD)

def X (g : Fin 2) : Fin 204800 → Fin 8 → EReal := fun r i => (V c main_v39 : S2x204800x8.Idx → EReal) (ix3 g r i)
def Wb : Fin 128 → Fin 8 → EReal := fun k i => (V c main_v40 : S128x8.Idx → EReal) (ix2 k i)
def bb : Fin 128 → EReal := fun k => (V c main_v41 : S1x128.Idx → EReal) (ix2 0 k)
def Wg (g : Fin 2) : Fin 128 → Fin 128 → EReal := fun j k => (V c main_v45 : S2x128x128.Idx → EReal) (ix3 g j k)
def bg (g : Fin 2) : Fin 128 → EReal := fun j => (V c main_v50 : S2x1x128.Idx → EReal) (ix3 g 0 j)
def q (g : Fin 2) : Fin 128 → EReal := fun k => (V c main_v117 : S2x1x128.Idx → EReal) (ix3 g 0 k)

end Cert.KernelIdeal.Acc

end
-- ==== Proof.KIPool.lean ====
import proofs.«404624_j46557445488821_3_alg».proof.Proof.KIRegion0
import proofs.«404624_j46557445488821_3_alg».proof.Proof.KIPay
import proofs.«404624_j46557445488821_3_alg».proof.Proof.KISpec
import proofs.«404624_j46557445488821_3_alg».proof.Proof.KIAcc
import Idealize.ShloMosaic.Lib.Pipeline.Value

set_option maxRecDepth 16384

noncomputable section

namespace Cert.KernelIdeal.Val

open Cert.KernelIdeal Cert.KernelIdeal.Gen Cert.KernelIdeal.Hand Cert.KernelIdeal.Acc Idealize.ShloMosaic Idealize.ShloMosaic.ValueIdx
open Idealize.ShloMosaic.TcCoe
open Idealize.ShloMosaic.Pipeline (Dat)

variable (V : Acc.Bufs) (c : Dev nD)

theorem idx_facts0 : ∀ t : Fin cfg0.N,
    win0_0.index t 0 = t.val / 25 ∧ win0_0.index t 1 = t.val % 25 ∧ win0_0.index t 2 = 0
    ∧ win0_1.index t 0 = 0 ∧ win0_1.index t 1 = 0 ∧ win0_2.index t 0 = 0 ∧ win0_2.index t 1 = 0
    ∧ win0_3.index t 0 = t.val / 25 ∧ win0_3.index t 1 = 0 ∧ win0_3.index t 2 = 0
    ∧ win0_4.index t 0 = t.val / 25 ∧ win0_4.index t 1 = 0 ∧ win0_4.index t 2 = 0
    ∧ win0_5.index t 0 = t.val / 25 ∧ win0_5.index t 1 = 0 ∧ win0_5.index t 2 = 0 :=
  (by decide +kernel : ∀ t : Fin grid0.N, _)

open Cert.KernelIdeal.PayVal

def tileMax (g : Fin 2) (s : Fin 25) (j : Fin 128) : EReal :=
  Finset.univ.sup fun r : Fin 8192 =>
    Cert.Spec.emb (X V c g) (Wb V c) (bb V c) (Wg V c g) (bg V c g)
      ⟨8192 * s.val + r.val, by have := s.isLt; have := r.isLt; omega⟩ j

theorem upd_apply (t : Fin cfg0.N) (g : Fin 2) (s : Fin 25) (hg : g.val = t.val / 25) (hs : s.val = t.val % 25)
    (a : Vec Ideal S1x1x128 .f32) (j : Fin 128) :
    k0_pay2 (iblk0 (F := Ideal) V c 0 t) (iblk0 (F := Ideal) V c 1 t) (iblk0 (F := Ideal) V c 2 t)
        (iblk0 (F := Ideal) V c 3 t) (iblk0 (F := Ideal) V c 4 t) a (ix3 0 0 j)
      = max (a (ix3 0 0 j)) (tileMax V c g s j) := by
  have e := idx_facts0 t
  have e0 : ∀ (r : Fin 8192) i, (iblk0 (F := Ideal) V c 0 t : S1x8192x8.Idx → EReal) (ix3 0 r i)
      = X V c g ⟨8192 * s.val + r.val, by have := s.isLt; have := r.isLt; omega⟩ i := fun r i =>
    congrArg (V c main_v39 : S2x204800x8.Idx → EReal) (funext fun a => Fin.ext (by
      match a with
      | ⟨0, _⟩ => show win0_0.index t 0 * 1 + 1 * 0 = g.val; omega
      | ⟨1, _⟩ => show win0_0.index t 1 * 8192 + 1 * r.val = 8192 * s.val + r.val; omega
      | ⟨2, _⟩ => show win0_0.index t 2 * 8 + 1 * i.val = i.val; omega))
  have e1 : ∀ k i, (iblk0 (F := Ideal) V c 1 t : S128x8.Idx → EReal) (ix2 k i) = Wb V c k i := fun k i =>
    congrArg (V c main_v40 : S128x8.Idx → EReal) (funext fun a => Fin.ext (by
      match a with
      | ⟨0, _⟩ => show win0_1.index t 0 * 128 + 1 * k.val = k.val; omega
      | ⟨1, _⟩ => show win0_1.index t 1 * 8 + 1 * i.val = i.val; omega))
  have e2 : ∀ k, (iblk0 (F := Ideal) V c 2 t : S1x128.Idx → EReal) (ix2 0 k) = bb V c k := fun k =>
    congrArg (V c main_v41 : S1x128.Idx → EReal) (funext fun a => Fin.ext (by
      match a with
      | ⟨0, _⟩ => show win0_2.index t 0 * 1 + 1 * 0 = 0; omega
      | ⟨1, _⟩ => show win0_2.index t 1 * 128 + 1 * k.val = k.val; omega))
  have e3 : ∀ j k, (iblk0 (F := Ideal) V c 3 t : S1x128x128.Idx → EReal) (ix3 0 j k) = Wg V c g j k := fun j k =>
    congrArg (V c main_v45 : S2x128x128.Idx → EReal) (funext fun a => Fin.ext (by
      match a with
      | ⟨0, _⟩ => show win0_3.index t 0 * 1 + 1 * 0 = g.val; omega
      | ⟨1, _⟩ => show win0_3.index t 1 * 128 + 1 * j.val = j.val; omega
      | ⟨2, _⟩ => show win0_3.index t 2 * 128 + 1 * k.val = k.val; omega))
  have e4 : ∀ j, (iblk0 (F := Ideal) V c 4 t : S1x1x128.Idx → EReal) (ix3 0 0 j) = bg V c g j := fun j =>
    congrArg (V c main_v50 : S2x1x128.Idx → EReal) (funext fun a => Fin.ext (by
      match a with
      | ⟨0, _⟩ => show win0_4.index t 0 * 1 + 1 * 0 = g.val; omega
      | ⟨1, _⟩ => show win0_4.index t 1 * 1 + 1 * 0 = 0; omega
      | ⟨2, _⟩ => show win0_4.index t 2 * 128 + 1 * j.val = j.val; omega))
  rw [pay2_apply]
  unfold tileMax Cert.Spec.emb Cert.Spec.hid
  simp only [e0, e1, e2, e3, e4]

theorem N0 : cfg0.N = 50 := N_0

theorem upto_succ (s : ℕ) (hs : s + 1 < 25) :
    (Finset.univ.filter fun s' : Fin 25 => s'.val ≤ s + 1)
      = insert (⟨s + 1, hs⟩ : Fin 25) (Finset.univ.filter fun s' : Fin 25 => s'.val ≤ s) := by
  ext x
  simp only [Finset.mem_filter, Finset.mem_univ, true_and, Finset.mem_insert, Fin.ext_iff]
  omega

/-- Induction on the position: the first point joins −∞ with tile 0, each later point joins its own tile. -/
theorem acc_apply (g : Fin 2) (j : Fin 128) : ∀ (s : ℕ), s < 25 →
    (acc0 (F := Ideal) V c (25 * g.val + s) : S1x1x128.Idx → EReal) (ix3 0 0 j)
      = (Finset.univ.filter fun s' : Fin 25 => s'.val ≤ s).sup fun s' => tileMax V c g s' j
  | 0, _ => by
    have hn : 25 * g.val + 0 < cfg0.N := by rw [N0]; have := g.isLt; omega
    rw [acc0_reset V c (25 * g.val + 0) hn (by omega)]
    rw [upd_apply V c ⟨25 * g.val + 0, hn⟩ g 0 (by show g.val = (25 * g.val + 0) / 25; omega)
      (by show (0 : ℕ) = (25 * g.val + 0) % 25; omega) (k0_pay1 (F := Ideal)) j]
    rw [pay1_apply, show (Finset.univ.filter fun s' : Fin 25 => s'.val ≤ 0) = {0} by
      ext x; simp only [Finset.mem_filter, Finset.mem_univ, true_and, Finset.mem_singleton, Fin.ext_iff]; exact Nat.le_zero,
      Finset.sup_singleton]
    exact max_eq_right bot_le
  | s + 1, hs => by
    have hn : 25 * g.val + s + 1 < cfg0.N := by rw [N0]; have := g.isLt; omega
    show (acc0 (F := Ideal) V c (25 * g.val + s + 1) : S1x1x128.Idx → EReal) (ix3 0 0 j) = _
    rw [acc0_step V c (25 * g.val + s) hn (by omega)]
    rw [upd_apply V c ⟨25 * g.val + s + 1, hn⟩ g ⟨s + 1, hs⟩ (by show g.val = (25 * g.val + s + 1) / 25; omega)
      (by show s + 1 = (25 * g.val + s + 1) % 25; omega) (acc0 (F := Ideal) V c (25 * g.val + s)) j]
    rw [acc_apply g j s (by omega), upto_succ s hs, Finset.sup_insert]
    exact max_comm _ _

@[irreducible] def pool (g : Fin 2) (j : Fin 128) : EReal :=
  Finset.univ.sup fun r : Fin 204800 => Cert.Spec.emb (X V c g) (Wb V c) (bb V c) (Wg V c g) (bg V c g) r j

theorem acc_last (g : Fin 2) (j : Fin 128) :
    (acc0 (F := Ideal) V c (25 * g.val + 24) : S1x1x128.Idx → EReal) (ix3 0 0 j) = pool V c g j := by
  rw [acc_apply V c g j 24 (by omega), Finset.filter_true_of_mem fun x _ => by have := x.isLt; omega]
  unfold pool
  exact (Cert.Spec.sup_tiles fun r : Fin 204800 => Cert.Spec.emb (X V c g) (Wb V c) (bb V c) (Wg V c g) (bg V c g) r j).symm

@[irreducible] def poolArr : S2x1x128.Idx → EReal := fun i => pool V c (i 0) (i 2)

theorem poolArr_apply (g : Fin 2) (j : Fin 128) : poolArr V c (ix3 g 0 j) = pool V c g j := by
  unfold poolArr
  rfl

theorem flushed_pool (t : Fin cfg0.N) (hf : (cfg0.win 5).flush t = true) :
    (dat0 (F := Ideal) V c).flushed 5 t = ((cfg0.win 5).blk t).view.read (Elt Ideal) (poolArr V c) := by
  have h24 : t.val % 25 = 24 := (flush0_5 t).mp hf
  have hN : t.val < 50 := lt_of_lt_of_eq t.isLt N0
  have e := idx_facts0 t
  funext y
  obtain ⟨a, b, j, rfl⟩ : ∃ (a : Fin 1) (b : Fin 1) (j : Fin 128), y = ix3 a b j := ⟨y 0, y 1, y 2, eq_ix3 y⟩
  obtain rfl : a = 0 := Subsingleton.elim _ _
  obtain rfl : b = 0 := Subsingleton.elim _ _
  obtain ⟨g, hg⟩ : ∃ g : Fin 2, t.val = 25 * g.val + 24 :=
    ⟨⟨t.val / 25, by omega⟩, by show t.val = 25 * (t.val / 25) + 24; omega⟩
  have hemb : ((cfg0.win 5).blk t).view.emb (ix3 (0 : Fin 1) (0 : Fin 1) j) = ix3 g (0 : Fin 1) j :=
    funext fun a => Fin.ext (by
      match a with
      | ⟨0, _⟩ => show win0_5.index t 0 * 1 + 1 * 0 = g.val; omega
      | ⟨1, _⟩ => show win0_5.index t 1 * 1 + 1 * 0 = 0; omega
      | ⟨2, _⟩ => show win0_5.index t 2 * 128 + 1 * j.val = j.val; omega)
  rw [View.read_apply]
  show (acc0 (F := Ideal) V c t.val : S1x1x128.Idx → EReal) (ix3 0 0 j) = poolArr V c (((cfg0.win 5).blk t).view.emb (ix3 0 0 j))
  rw [hemb, poolArr_apply, hg]
  exact acc_last V c g j

/-- Index (g, 0, j) lies in the block of point 25 g + 24. -/
theorem cover_pool (i : S2x1x128.Idx) :
    ∃ t : Fin cfg0.N, (cfg0.win 5).flush t = true ∧ i ∈ ((cfg0.win 5).blk t).view.set := by
  have h0 : (i 0).val < 2 := (i 0).isLt
  have h1 : (i 1).val < 1 := (i 1).isLt
  have h2 : (i 2).val < 128 := (i 2).isLt
  obtain ⟨t, ht⟩ : ∃ t : Fin cfg0.N, t.val = 25 * (i 0).val + 24 := ⟨⟨25 * (i 0).val + 24, by rw [N0]; omega⟩, rfl⟩
  have e := idx_facts0 t
  refine ⟨t, (flush0_5 t).mpr (by omega), ?_⟩
  show i ∈ ((View.whole main_v51).slice (win0_5.rect t)).set
  rw [View.set_slice_whole, Rect.mem_set_unit]
  intro a
  match a with
  | ⟨0, _⟩ => show win0_5.index t 0 * 1 ≤ (i 0).val ∧ (i 0).val < win0_5.index t 0 * 1 + 1; omega
  | ⟨1, _⟩ => show win0_5.index t 1 * 1 ≤ (i 1).val ∧ (i 1).val < win0_5.index t 1 * 1 + 1; omega
  | ⟨2, _⟩ => show win0_5.index t 2 * 128 ≤ (i 2).val ∧ (i 2).val < win0_5.index t 2 * 128 + 128; omega

theorem pool_val (V : Acc.Bufs) (c : Dev nD) (g : Fin 2) (j : Fin 128) :
    ((dat0 (F := Ideal) V c).arrAt 5 cfg0.N : S2x1x128.Idx → EReal) (ix3 g 0 j)
      = Finset.univ.sup fun r : Fin 204800 => Cert.Spec.emb (X V c g) (Wb V c) (bb V c) (Wg V c g) (bg V c g) r j := by
  rw [(dat0 (F := Ideal) V c).arrAt_eq_of_cover 5 (poolArr V c) (flushed_pool V c) cover_pool, poolArr_apply]
  unfold pool
  rfl

end Cert.KernelIdeal.Val

end
-- ==== Proof.KIHostVals.lean ====
import proofs.«404624_j46557445488821_3_alg».proof.Proof.KIHostSide
import proofs.«404624_j46557445488821_3_alg».proof.Proof.KIAcc
import proofs.«404624_j46557445488821_3_alg».proof.Proof.KISpec
import Idealize.ShloMosaic.Lib.StableHlo.Run
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

set_option maxRecDepth 16384

noncomputable section

namespace Cert.KernelIdeal.Val

open Cert.KernelIdeal Cert.KernelIdeal.Gen Cert.KernelIdeal.Hand Cert.KernelIdeal.Acc
open Idealize.ShloMosaic Idealize.ShloMosaic.TcCoe Idealize.ShloMosaic.ValueIdx

section Layout

/-- Rows below 200000 lie in the first piece, the others in the slice of the first 4800 rows. -/
theorem hv_pad_apply (A : S200000x8.Idx → EReal) (r : Fin 204800) (i : Fin 8) :
    concatenate S204800x8 0 [⟨S200000x8, A⟩, ⟨S4800x8, extractStridedSlice S4800x8 ![0, 0] A slices_S200000x8_S4800x8_0_0⟩]
      concatenates_S200000x8_S4800x8_S204800x8_d0 (ix2 r i) = A (ix2 (Cert.Spec.padRow r) i) := by
  have hr := r.isLt
  by_cases h : r.val < 200000
  · exact concatenate_pair_apply_left (0 : Fin S204800x8.rank) A _ concatenates_S200000x8_S4800x8_S204800x8_d0 (ix2 r i) rfl
      (ix2 (Cert.Spec.padRow r) i) (fun b => by
        match b with
        | ⟨0, _⟩ => exact if_pos h
        | ⟨1, _⟩ => rfl)
  · have hp : (Cert.Spec.padRow r).val = r.val - 200000 := if_neg h
    refine (concatenate_pair_apply_right (0 : Fin S204800x8.rank) A _ concatenates_S200000x8_S4800x8_S204800x8_d0 (ix2 r i) rfl rfl
      (ix2 (⟨r.val - 200000, by omega⟩ : Fin 4800) i)
      (fun b => by
        match b with
        | ⟨0, _⟩ => exact fun hb => absurd rfl hb
        | ⟨1, _⟩ => exact fun _ => rfl)
      (by show r.val - 200000 + 200000 = r.val; omega)).trans ?_
    exact slice2_axis0_apply 0 A slices_S200000x8_S4800x8_0_0 _ i _ (hp.trans (Nat.zero_add _).symm)

theorem hv_lead_apply {a b : ℕ} (A : (⟨2, ![a, b]⟩ : Shape).Idx → EReal)
    (h : (⟨2, ![a, b]⟩ : Shape).BroadcastsInDim ⟨3, ![1, a, b]⟩ (![1, 2] : Fin 2 → Fin 3)) (u : Fin 1) (r : Fin a) (i : Fin b) :
    broadcastInDim ⟨3, ![1, a, b]⟩ ![1, 2] h A (ix3 u r i) = A (ix2 r i) :=
  broadcastInDim_apply _ h A (ix3 u r i) (ix2 r i) (fun x => by
    match x with
    | ⟨0, _⟩ => show r.val = if a = 1 then 0 else r.val; split <;> omega
    | ⟨1, _⟩ => show i.val = if b = 1 then 0 else i.val; split <;> omega)

theorem hv_stack_apply {a b : ℕ} (A B : (⟨3, ![1, a, b]⟩ : Shape).Idx → EReal)
    (h : Shape.Concatenates [⟨3, ![1, a, b]⟩, ⟨3, ![1, a, b]⟩] ⟨3, ![2, a, b]⟩ 0) (r : Fin a) (i : Fin b) :
    concatenate ⟨3, ![2, a, b]⟩ 0 [⟨⟨3, ![1, a, b]⟩, A⟩, ⟨⟨3, ![1, a, b]⟩, B⟩] h (ix3 (0 : Fin 2) r i) = A (ix3 (0 : Fin 1) r i)
      ∧ concatenate ⟨3, ![2, a, b]⟩ 0 [⟨⟨3, ![1, a, b]⟩, A⟩, ⟨⟨3, ![1, a, b]⟩, B⟩] h (ix3 (1 : Fin 2) r i) = B (ix3 (0 : Fin 1) r i) :=
  ⟨concatenate_pair_apply_left (t := ⟨3, ![2, a, b]⟩) (s₁ := ⟨3, ![1, a, b]⟩) (s₂ := ⟨3, ![1, a, b]⟩) (0 : Fin 3) A B h
      (ix3 (0 : Fin 2) r i) rfl (ix3 (0 : Fin 1) r i)
      (fun x => by match x with | ⟨0, _⟩ => rfl | ⟨1, _⟩ => rfl | ⟨2, _⟩ => rfl),
    concatenate_pair_apply_right (t := ⟨3, ![2, a, b]⟩) (s₁ := ⟨3, ![1, a, b]⟩) (s₂ := ⟨3, ![1, a, b]⟩) (0 : Fin 3) A B h
      (ix3 (1 : Fin 2) r i) rfl rfl (ix3 (0 : Fin 1) r i)
      (fun x => by
        match x with
        | ⟨0, _⟩ => exact fun hb => absurd rfl hb
        | ⟨1, _⟩ => exact fun _ => rfl
        | ⟨2, _⟩ => exact fun _ => rfl)
      rfl⟩

end Layout

section Stretch7
variable (W : Valuation τ sig (Elt Ideal))

theorem hv_r7_X (r : Fin 204800) (i : Fin 8) :
    (StableHlo.after (hostOps0_6 (F := Ideal)) W (Proc.devRef .tc main_v39) : S2x204800x8.Idx → EReal) (ix3 0 r i)
        = (W (Proc.devRef .tc main_arg3) : S200000x8.Idx → EReal) (ix2 (Cert.Spec.padRow r) i)
      ∧ (StableHlo.after (hostOps0_6 (F := Ideal)) W (Proc.devRef .tc main_v39) : S2x204800x8.Idx → EReal) (ix3 1 r i)
        = (W (Proc.devRef .tc main_arg4) : S200000x8.Idx → EReal) (ix2 (Cert.Spec.padRow r) i) := by
  dsimp only [hostOps0_6]
  after_results
  exact ⟨(hv_stack_apply _ _ _ r i).1.trans ((hv_lead_apply _ _ 0 r i).trans (hv_pad_apply _ r i)),
    (hv_stack_apply _ _ _ r i).2.trans ((hv_lead_apply _ _ 0 r i).trans (hv_pad_apply _ r i))⟩

theorem hv_r7_Wb (k : Fin 128) (i : Fin 8) :
    (StableHlo.after (hostOps0_6 (F := Ideal)) W (Proc.devRef .tc main_v40) : S128x8.Idx → EReal) (ix2 k i)
      = (W (Proc.devRef .tc main_arg9) : S128x8.Idx → EReal) (ix2 k i) := by
  dsimp only [hostOps0_6]
  after_results
  rfl

theorem hv_r7_bb (k : Fin 128) :
    (StableHlo.after (hostOps0_6 (F := Ideal)) W (Proc.devRef .tc main_v41) : S1x128.Idx → EReal) (ix2 0 k)
      = (W (Proc.devRef .tc main_arg10) : S128.Idx → EReal) (ix1 k) := by
  dsimp only [hostOps0_6]
  after_results
  exact shapeCast_a_1a_apply (α := EReal) _ shapeCasts_S128_S1x128 0 k

theorem hv_r7_Wg (j k : Fin 128) :
    (StableHlo.after (hostOps0_6 (F := Ideal)) W (Proc.devRef .tc main_v45) : S2x128x128.Idx → EReal) (ix3 0 j k)
        = (W (Proc.devRef .tc main_arg15) : S128x128.Idx → EReal) (ix2 j k)
      ∧ (StableHlo.after (hostOps0_6 (F := Ideal)) W (Proc.devRef .tc main_v45) : S2x128x128.Idx → EReal) (ix3 1 j k)
        = (W (Proc.devRef .tc main_arg17) : S128x128.Idx → EReal) (ix2 j k) := by
  dsimp only [hostOps0_6]
  after_results
  exact ⟨(truncf_apply (φ := .f32) (ψ := .bf16) _ bitsLt_bf16_f32 _).trans
      ((hv_stack_apply _ _ _ j k).1.trans (hv_lead_apply _ _ 0 j k)),
    (truncf_apply (φ := .f32) (ψ := .bf16) _ bitsLt_bf16_f32 _).trans
      ((hv_stack_apply _ _ _ j k).2.trans (hv_lead_apply _ _ 0 j k))⟩

theorem hv_r7_bg (j : Fin 128) :
    (StableHlo.after (hostOps0_6 (F := Ideal)) W (Proc.devRef .tc main_v50) : S2x1x128.Idx → EReal) (ix3 0 0 j)
        = (W (Proc.devRef .tc main_arg16) : S128.Idx → EReal) (ix1 j)
      ∧ (StableHlo.after (hostOps0_6 (F := Ideal)) W (Proc.devRef .tc main_v50) : S2x1x128.Idx → EReal) (ix3 1 0 j)
        = (W (Proc.devRef .tc main_arg18) : S128.Idx → EReal) (ix1 j) := by
  dsimp only [hostOps0_6]
  after_results_simp
  have tail := fun (b : S128.Idx → EReal) => (hv_lead_apply (a := 1) (b := 128) _ bcast_S1x128_S1x1x128_1_2 0 0 j).trans
    (shapeCast_a_1a_apply (α := EReal) b shapeCasts_S128_S1x128 0 j)
  exact ⟨(hv_stack_apply (a := 1) (b := 128) _ _ concatenates_S1x1x128_S1x1x128_S2x1x128_d0 0 j).1.trans (tail _),
    (hv_stack_apply (a := 1) (b := 128) _ _ concatenates_S1x1x128_S1x1x128_S2x1x128_d0 0 j).2.trans (tail _)⟩

end Stretch7

section Stretch11

theorem hv_after_split (n : ℕ) (ops : List (HloOp τ sig (Elt Ideal))) (V : Valuation τ sig (Elt Ideal)) :
    StableHlo.after ops V = StableHlo.after (ops.drop n) (StableHlo.after (ops.take n) V) := by
  rw [← StableHlo.after_append, List.take_append_drop]

theorem hv_take_noArg (n : ℕ) {ops : List (HloOp τ sig (Elt Ideal))} (h : NoArgWrite ops) : NoArgWrite (ops.take n) :=
  List.forall_iff_forall_mem.mpr fun op hop => (List.forall_iff_forall_mem.mp h) op (List.mem_of_mem_take hop)

variable (V : Valuation τ sig (Elt Ideal))

theorem hv_keep (V1 V2 V3 : Valuation τ sig (Elt Ideal)) (b : Ref sig .tc) (hb : b = main_v39 ∨ b = main_v40 ∨ b = main_v41) :
    StableHlo.after (hostOps1 (F := Ideal)) V1 (Proc.devRef .tc b) = V1 (Proc.devRef .tc b)
      ∧ StableHlo.after (hostOps1_1 (F := Ideal)) V2 (Proc.devRef .tc b) = V2 (Proc.devRef .tc b)
      ∧ StableHlo.after (hostOps1_2 (F := Ideal)) V3 (Proc.devRef .tc b) = V3 (Proc.devRef .tc b) := by
  rcases hb with rfl | rfl | rfl <;> refine ⟨?_, ?_, ?_⟩ <;>
    first
    | (dsimp only [hostOps1]; after_results)
    | (dsimp only [hostOps1_1]; after_results)
    | (dsimp only [hostOps1_2]; after_results_simp)

theorem hv_tail_att (W : Valuation τ sig (Elt Ideal)) :
    StableHlo.after (List.drop 49 (hostOps1_2 (F := Ideal))) W (Proc.devRef .tc main_v104) = W (Proc.devRef .tc main_v104) := by
  simp only [hostOps1_2, List.drop_succ_cons, List.drop_zero]
  after_results

/-- Both folded queries are rows of one stacked array, so they are read off together. -/
theorem hv_r11_q (a : Fin 128 → EReal) (w0 w1 : Fin 128 → Fin 128 → EReal)
    (ha : ∀ l, (StableHlo.after (hostOps1_2 (F := Ideal)) V (Proc.devRef .tc main_v104) : S1x128.Idx → EReal) (ix2 0 l) = a l)
    (hw0 : ∀ l k, (V (Proc.devRef .tc main_arg15) : S128x128.Idx → EReal) (ix2 l k) = w0 l k)
    (hw1 : ∀ l k, (V (Proc.devRef .tc main_arg17) : S128x128.Idx → EReal) (ix2 l k) = w1 l k) (k : Fin 128) :
    (StableHlo.after (hostOps1_2 (F := Ideal)) V (Proc.devRef .tc main_v117) : S2x1x128.Idx → EReal) (ix3 0 0 k)
        = ∑ l : Fin 128, a l * w0 l k
      ∧ (StableHlo.after (hostOps1_2 (F := Ideal)) V (Proc.devRef .tc main_v117) : S2x1x128.Idx → EReal) (ix3 1 0 k)
        = ∑ l : Fin 128, a l * w1 l k := by
  have hN := hv_take_noArg 49 hostOps1_2_noArg
  rw [hv_after_split 49 hostOps1_2] at ha ⊢
  rw [← after_arg hN V (show main_arg15 ∈ argRefs by decide)] at hw0
  rw [← after_arg hN V (show main_arg17 ∈ argRefs by decide)] at hw1
  generalize StableHlo.after (List.take 49 (hostOps1_2 (F := Ideal))) V = W at ha hw0 hw1 ⊢
  rw [hv_tail_att W] at ha
  simp only [hostOps1_2, List.drop_succ_cons, List.drop_zero]
  after_results
  have tail : ∀ (w : Fin 128 → Fin 128 → EReal) (A : S128x128.Idx → EReal), (∀ l k, A (ix2 l k) = w l k) →
      broadcastInDim S1x1x128 ![1, 2] bcast_S1x128_S1x1x128_1_2 (Host.dotGeneral (F := Ideal) (φ₁ := .f32) (φ₂ := .f32)
        dot_S1x128_S128x128_S1x128_1_0_0_1_n_n none (W (Proc.devRef .tc main_v104)) A) (ix3 0 0 k)
        = ∑ l : Fin 128, a l * w l k := fun w A hw =>
    (hv_lead_apply (a := 1) (b := 128) _ _ 0 0 k).trans ((StackMember.dotGeneral_plain_apply none _ A 0 k).trans
      (Finset.sum_congr rfl fun l _ => by rw [ha l, hw l k]))
  exact ⟨(hv_stack_apply (a := 1) (b := 128) _ _ _ 0 k).1.trans (tail w0 _ hw0),
    (hv_stack_apply (a := 1) (b := 128) _ _ _ 0 k).2.trans (tail w1 _ hw1)⟩

end Stretch11

variable (m : (ℓ : Loc nD τ sig) → Buf (Elt Ideal) ℓ) (c : Dev nD)

abbrev B7 : Acc.Bufs := fun c b => V7 (F := Ideal) m c b

theorem hv_V6_arg (a : Ref sig .tc) (ha : a ∈ argRefs) :
    V6 (F := Ideal) m c (Proc.devRef .tc a) = m ((c : Thread nD τ).loc a) :=
  (after_arg hostOps0_6_noArg (V6 m c) ha).symm.trans (V7_arg m c a ha)

theorem X_B7_0 (r : Fin 204800) (i : Fin 8) :
    X (B7 m) c 0 r i = (m ((c : Thread nD τ).loc main_arg3) : S200000x8.Idx → EReal) (ix2 (Cert.Spec.padRow r) i) :=
  (hv_r7_X (V6 m c) r i).1.trans (by rw [hv_V6_arg m c main_arg3 (by decide)])
theorem X_B7_1 (r : Fin 204800) (i : Fin 8) :
    X (B7 m) c 1 r i = (m ((c : Thread nD τ).loc main_arg4) : S200000x8.Idx → EReal) (ix2 (Cert.Spec.padRow r) i) :=
  (hv_r7_X (V6 m c) r i).2.trans (by rw [hv_V6_arg m c main_arg4 (by decide)])
theorem Wb_B7 (k : Fin 128) (i : Fin 8) :
    Wb (B7 m) c k i = (m ((c : Thread nD τ).loc main_arg9) : S128x8.Idx → EReal) (ix2 k i) :=
  (hv_r7_Wb (V6 m c) k i).trans (by rw [hv_V6_arg m c main_arg9 (by decide)])
theorem bb_B7 (k : Fin 128) :
    bb (B7 m) c k = (m ((c : Thread nD τ).loc main_arg10) : S128.Idx → EReal) (ix1 k) :=
  (hv_r7_bb (V6 m c) k).trans (by rw [hv_V6_arg m c main_arg10 (by decide)])
theorem Wg_B7_0 (j k : Fin 128) :
    Wg (B7 m) c 0 j k = (m ((c : Thread nD τ).loc main_arg15) : S128x128.Idx → EReal) (ix2 j k) :=
  (hv_r7_Wg (V6 m c) j k).1.trans (by rw [hv_V6_arg m c main_arg15 (by decide)])
theorem Wg_B7_1 (j k : Fin 128) :
    Wg (B7 m) c 1 j k = (m ((c : Thread nD τ).loc main_arg17) : S128x128.Idx → EReal) (ix2 j k) :=
  (hv_r7_Wg (V6 m c) j k).2.trans (by rw [hv_V6_arg m c main_arg17 (by decide)])
theorem bg_B7_0 (j : Fin 128) :
    bg (B7 m) c 0 j = (m ((c : Thread nD τ).loc main_arg16) : S128.Idx → EReal) (ix1 j) :=
  (hv_r7_bg (V6 m c) j).1.trans (by rw [hv_V6_arg m c main_arg16 (by decide)])
theorem bg_B7_1 (j : Fin 128) :
    bg (B7 m) c 1 j = (m ((c : Thread nD τ).loc main_arg18) : S128.Idx → EReal) (ix1 j) :=
  (hv_r7_bg (V6 m c) j).2.trans (by rw [hv_V6_arg m c main_arg18 (by decide)])

def att (V : Acc.Bufs) (c : Dev nD) : Fin 128 → EReal := fun l => (V c main_v104 : S1x128.Idx → EReal) (ix2 0 l)

variable (X8 : Dev nD → Valuation τ sig (Elt Ideal))
abbrev B11 : Acc.Bufs := fun c b => V11 (F := Ideal) X8 c b
variable (hX8 : ∀ (c : Dev nD) (b : Ref sig .tc), b ≠ main_v51 → X8 c (Proc.devRef .tc b) = V7 m c (Proc.devRef .tc b))
include hX8

theorem hv_V11_keep (b : Ref sig .tc) (hb : b = main_v39 ∨ b = main_v40 ∨ b = main_v41) :
    B11 X8 c b = B7 m c b :=
  have h := hv_keep (X8 c) (V9 X8 c) (V10 X8 c) b hb
  h.2.2.trans (h.2.1.trans (h.1.trans (hX8 c b (by rcases hb with rfl | rfl | rfl <;> decide))))

theorem hv_V10_arg (a : Ref sig .tc) (ha : a ∈ argRefs) (hne : a ≠ main_v51) :
    V10 (F := Ideal) X8 c (Proc.devRef .tc a) = m ((c : Thread nD τ).loc a) :=
  (after_arg hostOps1_1_noArg _ ha).trans ((after_arg hostOps1_noArg _ ha).trans ((hX8 c a hne).trans (V7_arg m c a ha)))

theorem X_B11 (g : Fin 2) : X (B11 X8) c g = X (B7 m) c g := by
  unfold X
  rw [hv_V11_keep m c X8 hX8 main_v39 (Or.inl rfl)]
theorem Wb_B11 : Wb (B11 X8) c = Wb (B7 m) c := by
  unfold Wb
  rw [hv_V11_keep m c X8 hX8 main_v40 (Or.inr (Or.inl rfl))]
theorem bb_B11 : bb (B11 X8) c = bb (B7 m) c := by
  unfold bb
  rw [hv_V11_keep m c X8 hX8 main_v41 (Or.inr (Or.inr rfl))]

theorem hv_q_B11 (k : Fin 128) :
    q (B11 X8) c 0 k = ∑ l : Fin 128, att (B11 X8) c l * Wg (B7 m) c 0 l k
      ∧ q (B11 X8) c 1 k = ∑ l : Fin 128, att (B11 X8) c l * Wg (B7 m) c 1 l k :=
  hv_r11_q (V10 X8 c) (att (B11 X8) c) (Wg (B7 m) c 0) (Wg (B7 m) c 1) (fun l => rfl)
    (fun l k => by rw [hv_V10_arg m c X8 hX8 main_arg15 (by decide) (by decide)]; exact (Wg_B7_0 m c l k).symm)
    (fun l k => by rw [hv_V10_arg m c X8 hX8 main_arg17 (by decide) (by decide)]; exact (Wg_B7_1 m c l k).symm) k

theorem q_B11_0 (k : Fin 128) :
    q (B11 X8) c 0 k = ∑ l : Fin 128, att (B11 X8) c l * Wg (B7 m) c 0 l k :=
  (hv_q_B11 m c X8 hX8 k).1
theorem q_B11_1 (k : Fin 128) :
    q (B11 X8) c 1 k = ∑ l : Fin 128, att (B11 X8) c l * Wg (B7 m) c 1 l k :=
  (hv_q_B11 m c X8 hX8 k).2

end Cert.KernelIdeal.Val

end
-- ==== Proof.KIAtt.lean ====
import proofs.«404624_j46557445488821_3_alg».proof.Proof.Gen.KernelIdeal.Launch
import Idealize.ShloMosaic.Lib.ValueIdx
import Idealize.ShloMosaic.Lib.Pipeline.Value
import Idealize.ShloMosaic.Lib.ValueLayout
import Idealize.ShloMosaic.Lib.IdealHost
import Idealize.ShloMosaic.Lib.StableHlo.Run
import Idealize.ShloMosaic.Lib.StackMember
import Idealize.ShloMosaic.PureOps.Ideal.Laws

set_option maxRecDepth 4096

noncomputable section

namespace Cert.KernelIdeal.Val

open Cert.KernelIdeal Cert.KernelIdeal.Gen Idealize.ShloMosaic Idealize.ShloMosaic.StableHlo Idealize.ShloMosaic.ValueIdx

variable (V : Valuation τ sig (Elt Ideal))

/-- One statement for the pooled rows and the logit rows, which differ only in their widths. -/
theorem slice_row {w m : ℕ} (A : (⟨3, ![2, 1, w]⟩ : Shape).Idx → EReal) (g : Fin 2)
    (hs : (⟨3, ![2, 1, w]⟩ : Shape).Slices ![g.val, 0, 0] ⟨3, ![1, 1, m]⟩)
    (hc : (⟨3, ![1, 1, m]⟩ : Shape).ShapeCasts ⟨2, ![1, m]⟩) (n : Fin m) (n' : Fin w) (hn : n'.val = n.val) :
    shapeCast ⟨2, ![1, m]⟩ (extractStridedSlice ⟨3, ![1, 1, m]⟩ ![g.val, 0, 0] A hs) hc (ix2 0 n) = A (ix3 g 0 n') := by
  rw [shapeCast_1ab_ab_apply]
  exact extractStridedSlice_apply _ _ hs _ (ix3 g 0 n') (fun a => match a with
    | ⟨0, _⟩ => rfl
    | ⟨1, _⟩ => rfl
    | ⟨2, _⟩ => hn.trans (Nat.zero_add _).symm)

theorem pooled_row0 (j : Fin 128) :
    (after ((hostOps1 (F := Ideal)).take 4) V (Proc.devRef .tc main_v53) : S1x128.Idx → EReal) (ix2 0 j)
      = (V (Proc.devRef .tc main_v51) : S2x1x128.Idx → EReal) (ix3 0 0 j) := by
  simp only [hostOps1, List.take_succ_cons, List.take_zero]
  after_results
  exact slice_row _ 0 slices_S2x1x128_S1x1x128_0_0_0 _ j j rfl

theorem pooled_row1 (j : Fin 128) :
    (after ((hostOps1 (F := Ideal)).take 4) V (Proc.devRef .tc main_v55) : S1x128.Idx → EReal) (ix2 0 j)
      = (V (Proc.devRef .tc main_v51) : S2x1x128.Idx → EReal) (ix3 1 0 j) := by
  simp only [hostOps1, List.take_succ_cons, List.take_zero]
  after_results
  exact slice_row _ 1 slices_S2x1x128_S1x1x128_1_0_0 _ j j rfl

theorem inner_apply (a : S1x128.Idx → EReal) (b : S128.Idx → EReal) (hb : S128.BroadcastsInDim S1x128 ![1])
    (hr : S1x128.ReducesTo [1] S1) (hu : 0 < S_.numel) (h1 : S1.BroadcastsInDim S1x1 ![0]) :
    broadcastInDim S1x1 ![0] h1
        (Host.reduceAdd (F := Ideal) (mulf (F := Ideal) (φ := .f32) a (broadcastInDim S1x128 ![1] hb b))
          (constant (F := Ideal) S_ .f32 0x00000000#32) hr hu) (ix2 0 0)
      = ∑ l : Fin 128, a (ix2 0 l) * b (ix1 l) := by
  have h : S1x128.Reduces [1] S1 := by decide
  rw [broadcastInDim_apply _ h1 _ _ (ix1 0) (fun a => match a with | ⟨0, _⟩ => rfl)]
  rw [hostReduceAdd_apply, Ideal.hostReduceAdd_single hr h, constant_apply, Ideal.ofBits_zero_f32, zero_add]
  show ∑ k : Fin 128, _ = _
  refine Finset.sum_congr rfl fun l _ => ?_
  rw [mulf_apply, broadcastInDim_apply _ hb b _ (ix1 l) (fun a => match a with
    | ⟨0, _⟩ => by show l.val = if (128 : Nat) = 1 then 0 else l.val; rw [if_neg (by decide)])]
  exact congrArg (a · * _) (funext fun c => Fin.ext (by fin_cases c <;> rfl))

theorem off0 (a : S1x128.Idx → EReal) (b : S128.Idx → EReal)
    (ha : V (Proc.devRef .tc main_v104) = a) (hb : V (Proc.devRef .tc main_arg16) = b) :
    (after ((hostOps1_2 (F := Ideal)).drop 49) V (Proc.devRef .tc main_v110) : S1x1.Idx → EReal) (ix2 0 0)
      = ∑ l : Fin 128, a (ix2 0 l) * b (ix1 l) := by
  simp only [hostOps1_2, List.drop_succ_cons, List.drop_zero]
  after_results
  rw [ha, hb]
  exact inner_apply a b _ _ _ _

theorem off1 (a : S1x128.Idx → EReal) (b : S128.Idx → EReal)
    (ha : V (Proc.devRef .tc main_v104) = a) (hb : V (Proc.devRef .tc main_arg18) = b) :
    (after ((hostOps1_2 (F := Ideal)).drop 49) V (Proc.devRef .tc main_v114) : S1x1.Idx → EReal) (ix2 0 0)
      = ∑ l : Fin 128, a (ix2 0 l) * b (ix1 l) := by
  simp only [hostOps1_2, List.drop_succ_cons, List.drop_zero]
  after_results
  rw [ha, hb]
  exact inner_apply a b _ _ _ _

theorem row_apply (lg : S2x1x204800.Idx → EReal) (o : S1x1.Idx → EReal) (g : Fin 2)
    (hs : S2x1x204800.Slices ![g.val, 0, 0] S1x1x200000) (hc : S1x1x200000.ShapeCasts S1x200000)
    (hb : S1x1.BroadcastsInDim S1x200000 ![0, 1]) (n : Fin 200000) :
    addf (F := Ideal) (φ := .f32) (shapeCast S1x200000 (extractStridedSlice S1x1x200000 ![g.val, 0, 0] lg hs) hc)
        (broadcastInDim S1x200000 ![0, 1] hb o) (ix2 0 n)
      = lg (ix3 g 0 ⟨n.val, by omega⟩) + o (ix2 0 0) :=
  congrArg₂ (· + ·) (slice_row lg g hs hc n _ rfl) (broadcastInDim_apply _ hb o _ (ix2 0 0) (fun b => match b with
    | ⟨0, _⟩ => rfl
    | ⟨1, _⟩ => rfl))

/-- Each column falls in exactly one piece's span. -/
theorem concat4_apply (P0 P1 : S1x5.Idx → EReal) (P2 P3 : S1x200000.Idx → EReal)
    (h : Shape.Concatenates [S1x5, S1x5, S1x200000, S1x200000] S1x400010 1) (idx : Fin 400010) :
    concatenate S1x400010 1 [⟨S1x5, P0⟩, ⟨S1x5, P1⟩, ⟨S1x200000, P2⟩, ⟨S1x200000, P3⟩] h (ix2 0 idx)
      = if h5 : idx.val < 5 then P0 (ix2 0 ⟨idx.val, h5⟩)
        else if h10 : idx.val < 10 then P1 (ix2 0 ⟨idx.val - 5, by omega⟩)
        else if h : idx.val < 200010 then P2 (ix2 0 ⟨idx.val - 10, by omega⟩)
        else P3 (ix2 0 ⟨idx.val - 200010, by omega⟩) := by
  have piece := fun k hk (m : ℕ) (x : (⟨2, ![1, m]⟩ : Shape).Idx → EReal) hx pre hpre (n : Fin m) hn =>
    concatenate_apply_piece (t := S1x400010) (1 : Fin 2) [⟨S1x5, P0⟩, ⟨S1x5, P1⟩, ⟨S1x200000, P2⟩, ⟨S1x200000, P3⟩] h
      (ix2 0 idx) k hk ⟨2, ![1, m]⟩ x hx rfl pre hpre (ix2 0 n)
      (fun b hb => match b with
        | ⟨0, _⟩ => rfl
        | ⟨1, _⟩ => absurd rfl hb) hn
  have := idx.isLt
  by_cases h5 : idx.val < 5
  · rw [dif_pos h5]
    exact piece 0 (by simp) 5 P0 rfl 0 rfl ⟨idx.val, h5⟩ (Nat.zero_add _)
  rw [dif_neg h5]
  by_cases h10 : idx.val < 10
  · rw [dif_pos h10]
    exact piece 1 (by simp) 5 P1 rfl 5 rfl ⟨idx.val - 5, by omega⟩ (by show 5 + (idx.val - 5) = idx.val; omega)
  rw [dif_neg h10]
  by_cases h2 : idx.val < 200010
  · rw [dif_pos h2]
    exact piece 2 (by simp) 200000 P2 rfl 10 rfl ⟨idx.val - 10, by omega⟩ (by show 10 + (idx.val - 10) = idx.val; omega)
  rw [dif_neg h2]
  exact piece 3 (by simp) 200000 P3 rfl 200010
    (by simp only [List.take_succ_cons, List.take_zero, List.map_cons, List.map_nil]; decide) ⟨idx.val - 200010, by omega⟩
    (by show 200010 + (idx.val - 200010) = idx.val; omega)

theorem hero_apply (a : S1x128.Idx → EReal) (e : S5x128.Idx → EReal) (ht : S5x128.Transposes [1, 0] S128x5)
    (u : Fin 1) (c : Fin 5) :
    Host.dotGeneral (F := Ideal) (φ₁ := .f32) (φ₂ := .f32) dot_S1x128_S128x5_S1x5_1_0_0_1_n_n none a (transpose S128x5 [1, 0] e ht) (ix2 u c)
      = ∑ l : Fin 128, a (ix2 u l) * e (ix2 c l) :=
  (StackMember.dotGeneral_plain_apply none a _ u c).trans (Finset.sum_congr rfl fun l _ => by rw [transpose_ix2_apply])

theorem att_kernel (a : S1x128.Idx → EReal) (eh enh' : S5x128.Idx → EReal) (lg : S2x1x204800.Idx → EReal)
    (o0 o1 : S1x1.Idx → EReal)
    (ha : V (Proc.devRef .tc main_v104) = a) (h15 : V (Proc.devRef .tc main_v15) = eh)
    (h28 : V (Proc.devRef .tc main_v28) = enh') (h118 : V (Proc.devRef .tc main_v118) = lg)
    (h110 : V (Proc.devRef .tc main_v110) = o0) (h114 : V (Proc.devRef .tc main_v114) = o1) (idx : Fin 400010) :
    (after ((hostOps2 (F := Ideal)).take 13) V (Proc.devRef .tc main_v131) : S1x400010.Idx → EReal) (ix2 0 idx)
      = if h5 : idx.val < 5 then ∑ l : Fin 128, a (ix2 0 l) * eh (ix2 ⟨idx.val, h5⟩ l)
        else if h10 : idx.val < 10 then ∑ l : Fin 128, a (ix2 0 l) * enh' (ix2 ⟨idx.val - 5, by omega⟩ l)
        else if h : idx.val < 200010 then lg (ix3 0 0 ⟨idx.val - 10, by omega⟩) + o0 (ix2 0 0)
        else lg (ix3 1 0 ⟨idx.val - 200010, by omega⟩) + o1 (ix2 0 0) := by
  subst ha h15 h28 h118 h110 h114
  simp only [hostOps2, List.take_succ_cons, List.take_zero]
  after_results_simp
  dsimp only [Matrix.cons_val]
  after_results_simp
  exact (concat4_apply _ _ _ _ _ idx).trans (dite_congr rfl (fun _ => hero_apply _ _ _ 0 _) fun _ =>
    dite_congr rfl (fun _ => hero_apply _ _ _ 0 _) fun _ =>
      dite_congr rfl (fun _ => row_apply _ _ 0 _ _ _ _) fun _ => row_apply _ _ 1 _ _ _ _)

end Cert.KernelIdeal.Val

end
-- ==== Proof.RefVals.lean ====
import proofs.«404624_j46557445488821_3_alg».proof.Proof.RefRun
import proofs.«404624_j46557445488821_3_alg».proof.Proof.KISpec
import Idealize.ShloMosaic.Lib.Pipeline.Value
import Idealize.ShloMosaic.Lib.ValueIdx
import Idealize.ShloMosaic.Lib.ValueLayout
import Idealize.ShloMosaic.PureOps.Ideal.Laws
noncomputable section
namespace Cert.Ref.Val
open Cert.ReferenceIdeal Cert.ReferenceIdeal.Gen Cert.Ref Idealize.ShloMosaic Idealize.ShloMosaic.TcCoe Idealize.ShloMosaic.StableHlo Idealize.ShloMosaic.ValueIdx

variable (V : Valuation τ sig (Elt Ideal))

def X3 : Fin 200000 → Fin 8 → EReal := fun r i => (V (Proc.devRef .tc main_arg3) : S200000x8.Idx → EReal) (ix2 r i)
def X4 : Fin 200000 → Fin 8 → EReal := fun r i => (V (Proc.devRef .tc main_arg4) : S200000x8.Idx → EReal) (ix2 r i)
def Wb9 : Fin 128 → Fin 8 → EReal := fun k i => (V (Proc.devRef .tc main_arg9) : S128x8.Idx → EReal) (ix2 k i)
def bb10 : Fin 128 → EReal := fun k => (V (Proc.devRef .tc main_arg10) : S128.Idx → EReal) (ix1 k)
def Wg15 : Fin 128 → Fin 128 → EReal := fun j k => (V (Proc.devRef .tc main_arg15) : S128x128.Idx → EReal) (ix2 j k)
def bg16 : Fin 128 → EReal := fun j => (V (Proc.devRef .tc main_arg16) : S128.Idx → EReal) (ix1 j)
def Wg17 : Fin 128 → Fin 128 → EReal := fun j k => (V (Proc.devRef .tc main_arg17) : S128x128.Idx → EReal) (ix2 j k)
def bg18 : Fin 128 → EReal := fun j => (V (Proc.devRef .tc main_arg18) : S128.Idx → EReal) (ix1 j)
def Q106 : Fin 128 → EReal := fun l => (V (Proc.devRef .tc main_v106) : S1x128.Idx → EReal) (ix2 0 l)
def E57 : Fin 400010 → Fin 128 → EReal := fun i l => (V (Proc.devRef .tc main_v57) : S400010x128.Idx → EReal) (ix2 i l)

-- a product of an M×K by a K×N matrix read at an index: the row against the column
theorem dot_apply {M K N : Nat} (D : DotDims ⟨2, ![M, K]⟩ ⟨2, ![K, N]⟩ ⟨2, ![M, N]⟩) (hD : D = DotDims.plain M K N)
    (x : FVec Ideal ⟨2, ![M, K]⟩ .f32) (y : FVec Ideal ⟨2, ![K, N]⟩ .f32) (r : Fin M) (l : Fin N) :
    (Host.dotGeneral (F := Ideal) (φ₁ := .f32) (φ₂ := .f32) D none x y) (ix2 r l) = ∑ k : Fin K, x (ix2 r k) * y (ix2 k l) := by
  subst hD
  have l0 (i : (⟨2, ![M, N]⟩ : Shape).Idx) (q : (DotDims.plain M K N).contr.Idx) : ((DotDims.plain M K N).lhsIdx i q 0).val = (i 0).val := by
    unfold DotDims.lhsIdx
    rw [dif_neg (show ¬(0 : Fin 2) ∈ (DotDims.plain M K N).lhsBatch from List.not_mem_nil), dif_pos (show (0 : Fin 2) ∈ (DotDims.plain M K N).lhsNonContracting from List.mem_singleton.mpr rfl)]
    rfl
  have r1 (i : (⟨2, ![M, N]⟩ : Shape).Idx) (q : (DotDims.plain M K N).contr.Idx) : ((DotDims.plain M K N).rhsIdx i q 1).val = (i 1).val := by
    unfold DotDims.rhsIdx
    rw [dif_neg (show ¬(1 : Fin 2) ∈ (DotDims.plain M K N).rhsBatch from List.not_mem_nil), dif_pos (show (1 : Fin 2) ∈ (DotDims.plain M K N).rhsNonContracting from List.mem_singleton.mpr rfl)]
    rfl
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r l) ((contrEquiv1 (DotDims.plain M K N) K rfl rfl).symm k) = ix2 r k := funext fun a => Fin.ext (by
    match a with
    | ⟨0, _⟩ => exact l0 _ _
    | ⟨1, _⟩ => exact ((DotDims.plain M K N).lhsIdx_val_of_single rfl _ _).trans hk)
  have er : (DotDims.plain M K N).rhsIdx (ix2 r l) ((contrEquiv1 (DotDims.plain M K N) K rfl rfl).symm k) = ix2 k l := funext fun a => Fin.ext (by
    match a with
    | ⟨0, _⟩ => exact ((DotDims.plain M K N).rhsIdx_val_of_single rfl _ _).trans hk
    | ⟨1, _⟩ => exact r1 _ _)
  rw [el, er]

theorem transpose2_apply {m n : Nat} (h : (⟨2, ![m, n]⟩ : Shape).Transposes [1, 0] ⟨2, ![n, m]⟩) (w : FVec Ideal ⟨2, ![m, n]⟩ .f32) (k : Fin n) (l : Fin m) :
    transpose ⟨2, ![n, m]⟩ [1, 0] w h (ix2 k l) = w (ix2 l k) :=
  transpose_apply [1, 0] w h (ix2 k l) (ix2 l k) (fun b => match b with
    | ⟨0, _⟩ => rfl
    | ⟨1, _⟩ => rfl)

theorem row_apply (b : FVec Ideal S128 .f32) (l : Fin 128) :
    broadcastInDim S1x128 ![1] bcast_S128_S1x128_1 b (ix2 (0 : Fin 1) l) = b (ix1 l) :=
  broadcastInDim_apply _ bcast_S128_S1x128_1 b (ix2 (0 : Fin 1) l) (ix1 l) (fun a => match a with
    | ⟨0, _⟩ => by show l.val = if (128 : Nat) = 1 then 0 else l.val; rw [if_neg (by decide)])
theorem rows_apply (y : FVec Ideal S1x128 .f32) (r : Fin 200000) (l : Fin 128) :
    broadcastInDim S200000x128 ![0, 1] bcast_S1x128_S200000x128_0_1 y (ix2 r l) = y (ix2 (0 : Fin 1) l) :=
  broadcastInDim_apply _ bcast_S1x128_S200000x128_0_1 y (ix2 r l) (ix2 (0 : Fin 1) l) (fun a => match a with
    | ⟨0, _⟩ => by show 0 = if (1 : Nat) = 1 then 0 else r.val; rw [if_pos rfl]
    | ⟨1, _⟩ => by show l.val = if (128 : Nat) = 1 then 0 else l.val; rw [if_neg (by decide)])
theorem zeros_apply (r : Fin 200000) (l : Fin 128) :
    broadcastInDim S200000x128 ![] bcast_S_S200000x128 (constant (F := Ideal) S_ .f32 0x00000000#32) (ix2 r l) = (0 : EReal) :=
  (broadcastInDim_apply _ bcast_S_S200000x128 (constant (F := Ideal) S_ .f32 0x00000000#32) (ix2 r l) ix0 (fun a => a.elim0)).trans
    Ideal.ofBits_zero_f32

section Group
variable (x : FVec Ideal S200000x8 .f32) (w : FVec Ideal S128x8 .f32)
  (b : FVec Ideal S128 .f32) (wg : FVec Ideal S128x128 .f32)
  (bg : FVec Ideal S128 .f32)

def hidV : FVec Ideal S200000x128 .f32 :=
  maximumf (addf (Host.dotGeneral (F := Ideal) (φ₁ := .f32) (φ₂ := .f32) dot_S200000x8_S8x128_S200000x128_1_0_0_1_n_n none x (transpose S8x128 [1, 0] w transposes_S128x8_S8x128_1_0))
      (broadcastInDim S200000x128 ![0, 1] bcast_S1x128_S200000x128_0_1 (broadcastInDim S1x128 ![1] bcast_S128_S1x128_1 b)))
    (broadcastInDim S200000x128 ![] bcast_S_S200000x128 (constant (F := Ideal) S_ .f32 0x00000000#32))
def embV : FVec Ideal S200000x128 .f32 :=
  addf (Host.dotGeneral (F := Ideal) (φ₁ := .f32) (φ₂ := .f32) dot_S200000x128_S128x128_S200000x128_1_0_0_1_n_n none (hidV x w b) (transpose S128x128 [1, 0] wg transposes_S128x128_S128x128_1_0))
    (broadcastInDim S200000x128 ![0, 1] bcast_S1x128_S200000x128_0_1 (broadcastInDim S1x128 ![1] bcast_S128_S1x128_1 bg))
def maxV : FVec Ideal S1x128 .f32 :=
  broadcastInDim S1x128 ![1] bcast_S128_S1x128_1
    (Host.reduce FloatOps.maximumf (embV x w b wg bg) (constant (F := Ideal) S_ .f32 0xFF800000#32) reducesTo_S200000x128_S128_d0 h_S_)

theorem hidV_apply (r : Fin 200000) (k : Fin 128) :
    hidV x w b (ix2 r k) = Cert.Spec.hid (fun r i => x (ix2 r i)) (fun k i => w (ix2 k i)) (fun k => b (ix1 k)) r k := by
  unfold hidV Cert.Spec.hid
  rw [maximumf_apply, addf_apply, zeros_apply, rows_apply, row_apply, dot_apply dot_S200000x8_S8x128_S200000x128_1_0_0_1_n_n rfl]
  refine congrArg (fun z : EReal => max (z + b (ix1 k)) 0) (Finset.sum_congr rfl fun i _ => ?_)
  rw [transpose2_apply]

theorem embV_apply (r : Fin 200000) (l : Fin 128) :
    embV x w b wg bg (ix2 r l) = Cert.Spec.emb (fun r i => x (ix2 r i)) (fun k i => w (ix2 k i)) (fun k => b (ix1 k))
      (fun j k => wg (ix2 j k)) (fun j => bg (ix1 j)) r l := by
  unfold embV Cert.Spec.emb
  rw [addf_apply, rows_apply, row_apply, dot_apply dot_S200000x128_S128x128_S200000x128_1_0_0_1_n_n rfl]
  refine congrArg (fun z : EReal => z + bg (ix1 l)) (Finset.sum_congr rfl fun k _ => ?_)
  rw [hidV_apply, transpose2_apply]

theorem lift_ix2 (h : S200000x128.Reduces [0] S128) (t : Fin 128) (k : Fin (S200000x128.size 0)) :
    h.lift (ix1 t) k = ix2 (⟨k.val, k.isLt⟩ : Fin 200000) t := by
  funext c; apply Fin.ext
  fin_cases c <;> rfl

theorem maxV_apply (j : Fin 128) :
    maxV x w b wg bg (ix2 (0 : Fin 1) j) = Finset.univ.sup fun r : Fin 200000 =>
      Cert.Spec.emb (fun r i => x (ix2 r i)) (fun k i => w (ix2 k i)) (fun k => b (ix1 k)) (fun j k => wg (ix2 j k)) (fun j => bg (ix1 j)) r j := by
  unfold maxV
  rw [row_apply]
  have hR : S200000x128.Reduces [0] S128 := by decide
  rw [Host.reduce_eq_fold_single FloatOps.maximumf (embV x w b wg bg) _ reducesTo_S200000x128_S128_d0 hR h_S_]
  have hinit : (constant (F := Ideal) S_ .f32 0xFF800000#32 (Shape.Idx.first h_S_)) = (⊥ : EReal) := by
    show Ideal.ofBits .f32 0xFF800000#32 = ⊥
    simp [Ideal.ofBits, Ideal.ieee]
  have hf : (embV x w b wg bg ∘ hR.lift (ix1 j)) = fun k : Fin 200000 =>
      Cert.Spec.emb (fun r i => x (ix2 r i)) (fun k i => w (ix2 k i)) (fun k => b (ix1 k)) (fun j k => wg (ix2 j k)) (fun j => bg (ix1 j)) k j :=
    funext fun k => (congrArg (embV x w b wg bg) (lift_ix2 hR j k)).trans (embV_apply x w b wg bg ⟨k.val, k.isLt⟩ j)
  rw [hinit, hf]
  exact Cert.Spec.fold_max_bot _

end Group

theorem after_v43 : (after (RB (F := Ideal)) V (Proc.devRef .tc main_v43) : S1x128.Idx → EReal) = maxV (V (Proc.devRef .tc main_arg3)) (V (Proc.devRef .tc main_arg9)) (V (Proc.devRef .tc main_arg10)) (V (Proc.devRef .tc main_arg15)) (V (Proc.devRef .tc main_arg16)) := by
  rw [show RB (F := Ideal) = [_, _, _, _, _, _, _, _, _, _, _, _, _, _, _, _, _, _, _, _, _, _, _, _, _, _, _, _, _, _, _, _, _] from rfl]
  after_results_simp
  rfl
theorem after_v56 : (after (RB (F := Ideal)) V (Proc.devRef .tc main_v56) : S1x128.Idx → EReal) = maxV (V (Proc.devRef .tc main_arg4)) (V (Proc.devRef .tc main_arg9)) (V (Proc.devRef .tc main_arg10)) (V (Proc.devRef .tc main_arg17)) (V (Proc.devRef .tc main_arg18)) := by
  rw [show RB (F := Ideal) = [_, _, _, _, _, _, _, _, _, _, _, _, _, _, _, _, _, _, _, _, _, _, _, _, _, _, _, _, _, _, _, _, _] from rfl]
  after_results_simp
  rfl

abbrev pieces : List ((s : Shape) × (s.Idx → EReal)) :=
  [⟨S5x128, (V (Proc.devRef .tc main_v15) : S5x128.Idx → EReal)⟩, ⟨S5x128, (V (Proc.devRef .tc main_v28) : S5x128.Idx → EReal)⟩,
    ⟨S200000x128, embV (V (Proc.devRef .tc main_arg3)) (V (Proc.devRef .tc main_arg9)) (V (Proc.devRef .tc main_arg10)) (V (Proc.devRef .tc main_arg15)) (V (Proc.devRef .tc main_arg16))⟩, ⟨S200000x128, embV (V (Proc.devRef .tc main_arg4)) (V (Proc.devRef .tc main_arg9)) (V (Proc.devRef .tc main_arg10)) (V (Proc.devRef .tc main_arg17)) (V (Proc.devRef .tc main_arg18))⟩]
theorem after_v57 : (after (RB (F := Ideal)) V (Proc.devRef .tc main_v57) : S400010x128.Idx → EReal)
    = concatenate S400010x128 0 (pieces V) concatenates_S5x128_S5x128_S200000x128_S200000x128_S400010x128_d0 := by
  rw [show RB (F := Ideal) = [_, _, _, _, _, _, _, _, _, _, _, _, _, _, _, _, _, _, _, _, _, _, _, _, _, _, _, _, _, _, _, _, _] from rfl]
  after_results_simp
  rfl
theorem after_v108 : (after (RD (F := Ideal)) V (Proc.devRef .tc main_v108) : S1x400010.Idx → EReal)
    = Host.dotGeneral (F := Ideal) (φ₁ := .f32) (φ₂ := .f32) dot_S1x128_S128x400010_S1x400010_1_0_0_1_n_n none (V (Proc.devRef .tc main_v106))
        (transpose S128x400010 [1, 0] (V (Proc.devRef .tc main_v57)) transposes_S400010x128_S128x400010_1_0) := by
  rw [show RD (F := Ideal) = [_, _] from rfl]
  after_results_simp

theorem ref_max0 (j : Fin 128) : (after (RB (F := Ideal)) V (Proc.devRef .tc main_v43) : S1x128.Idx → EReal) (ix2 0 j) = Finset.univ.sup fun r : Fin 200000 => Cert.Spec.emb (X3 V) (Wb9 V) (bb10 V) (Wg15 V) (bg16 V) r j := by
  exact (congrFun (after_v43 V) (ix2 0 j)).trans (maxV_apply _ _ _ _ _ j)
theorem ref_max1 (j : Fin 128) : (after (RB (F := Ideal)) V (Proc.devRef .tc main_v56) : S1x128.Idx → EReal) (ix2 0 j) = Finset.univ.sup fun r : Fin 200000 => Cert.Spec.emb (X4 V) (Wb9 V) (bb10 V) (Wg17 V) (bg18 V) r j := by
  exact (congrFun (after_v56 V) (ix2 0 j)).trans (maxV_apply _ _ _ _ _ j)
theorem ref_cat (idx : Fin 400010) (l : Fin 128) : (after (RB (F := Ideal)) V (Proc.devRef .tc main_v57) : S400010x128.Idx → EReal) (ix2 idx l)
    = if h5 : idx.val < 5 then (V (Proc.devRef .tc main_v15) : S5x128.Idx → EReal) (ix2 ⟨idx.val, h5⟩ l)
      else if h10 : idx.val < 10 then (V (Proc.devRef .tc main_v28) : S5x128.Idx → EReal) (ix2 ⟨idx.val - 5, by omega⟩ l)
      else if h : idx.val < 200010 then Cert.Spec.emb (X3 V) (Wb9 V) (bb10 V) (Wg15 V) (bg16 V) ⟨idx.val - 10, by omega⟩ l
      else Cert.Spec.emb (X4 V) (Wb9 V) (bb10 V) (Wg17 V) (bg18 V) ⟨idx.val - 200010, by omega⟩ l := by
  refine (congrFun (after_v57 V) (ix2 idx l)).trans ?_
  have P (k : Nat) (hk : k < (pieces V).length) {n : Nat} (X : (⟨2, ![n, 128]⟩ : Shape).Idx → EReal) (hx : (pieces V)[k] = ⟨⟨2, ![n, 128]⟩, X⟩)
      (i : Nat) (hi : i < n) (ss : List Shape) (hss : ((pieces V).take k).map (·.1) = ss) (pre : Nat)
      (hpre : (ss.map fun s : Shape => if h : s.rank = S400010x128.rank then s.size ((0 : Fin S400010x128.rank).cast h.symm) else 0).sum = pre)
      (ha : pre + i = idx.val) :
      concatenate S400010x128 0 (pieces V) concatenates_S5x128_S5x128_S200000x128_S200000x128_S400010x128_d0 (ix2 idx l) = X (ix2 ⟨i, hi⟩ l) :=
    concatenate_apply_piece (α := EReal) (0 : Fin S400010x128.rank) (pieces V) _ (ix2 idx l) k hk _ X hx rfl pre (hss ▸ hpre) (ix2 ⟨i, hi⟩ l)
      (fun b hb => match b, hb with | ⟨0, _⟩, hb => absurd rfl hb | ⟨1, _⟩, _ => rfl) ha
  by_cases h5 : idx.val < 5
  · rw [dif_pos h5]
    exact P 0 (by simp) _ rfl _ h5 [] rfl 0 (by decide) (Nat.zero_add _)
  rw [dif_neg h5]
  by_cases h10 : idx.val < 10
  · rw [dif_pos h10]
    exact P 1 (by simp) _ rfl (idx.val - 5) (by omega) [S5x128] rfl 5 (by decide) (by omega)
  rw [dif_neg h10]
  by_cases h : idx.val < 200010
  · rw [dif_pos h]
    exact (P 2 (by simp) _ rfl (idx.val - 10) (by omega) [S5x128, S5x128] rfl 10 (by decide) (by omega)).trans (embV_apply _ _ _ _ _ _ l)
  rw [dif_neg h]
  exact (P 3 (by simp) _ rfl (idx.val - 200010) (by omega) [S5x128, S5x128, S200000x128] rfl 200010 (by decide) (by omega)).trans (embV_apply _ _ _ _ _ _ l)
theorem ref_att (idx : Fin 400010) : (after (RD (F := Ideal)) V (Proc.devRef .tc main_v108) : S1x400010.Idx → EReal) (ix2 0 idx) = ∑ l : Fin 128, Q106 V l * E57 V idx l := by
  refine (congrFun (after_v108 V) (ix2 0 idx)).trans ?_
  show (_ : EReal) = _
  rw [dot_apply dot_S1x128_S128x400010_S1x400010_1_0_0_1_n_n rfl]
  exact Finset.sum_congr rfl fun k _ => congrArg (fun z : EReal => Q106 V k * z) (transpose2_apply _ (V (Proc.devRef .tc main_v57)) k idx)

end Cert.Ref.Val
end
-- ==== Proof.KIPre.lean ====
import proofs.«404624_j46557445488821_3_alg».proof.Defs
import proofs.«404624_j46557445488821_3_alg».proof.Proof.Gen.Pre_finite_inputs
import Idealize.ShloMosaic.Lib.ReduceAll
import Idealize.ShloMosaic.Lib.ValueIdx
import Idealize.ShloMosaic.Lib.StableHlo.Predicate
import Mathlib.Data.EReal.Basic

set_option maxRecDepth 16384

noncomputable section

namespace Cert.KernelIdeal.Val

open Cert.KernelIdeal Idealize.ShloMosaic Idealize.ShloMosaic.TcCoe Idealize.ShloMosaic.ValueIdx

instance : Subsingleton Cert.Pre_finite_inputs.S_.Idx := ⟨fun a b => funext fun d => d.elim0⟩

/-- max x (-x) < ⊤ excludes both infinities. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  have hlt : max x (-x) < ⊤ :=
    of_decide_eq_true ((StableHlo.Predicate.ofBool_eq_one_iff _).1 h)
  induction x using EReal.rec with
  | bot => simp at hlt
  | coe r => exact ⟨r, rfl⟩
  | top => simp at hlt

/-- A true conjunction over the entries of "|x| < +∞" makes every entry a real. -/
theorem all_real {s : Shape} {axes : List (Fin s.rank)} (hb : Cert.Pre_finite_inputs.S_.BroadcastsInDim s (![] : Fin 0 → Fin s.rank))
    (hr : s.ReducesTo axes Cert.Pre_finite_inputs.S_) (h0 : 0 < Cert.Pre_finite_inputs.S_.numel) (a : FVec Ideal s .f32)
    (e : Host.reduce IntOp.andi (cmpf .olt (Host.absf a) (broadcastInDim s ![] hb (constant (F := Ideal) Cert.Pre_finite_inputs.S_ .f32 0x7F800000#32)))
      (constantI Cert.Pre_finite_inputs.S_ 1 1#1) hr h0 ix0 = 1#1) (i : s.Idx) :
    ∃ r : ℝ, (a : s.Idx → EReal) i = (r : EReal) := by
  have hi := Host.reduce_andi_all _ _ hr h0 ix0 e i
  have hbc : broadcastInDim s ![] hb (constant (F := Ideal) Cert.Pre_finite_inputs.S_ .f32 0x7F800000#32) i
      = Ideal.ofBits .f32 0x7F800000#32 := by
    rw [StableHlo.Predicate.bcast_scalar hb h0]; rfl
  exact real_of_abs_lt_top (a i) (by rw [← hbc]; exact hi)

/-- The precondition is a conjunction of one such test per argument; these are the ten arguments the algebra reads. -/
theorem pre_real [Cert.Pre_finite_inputs.Facts] (m : (ℓ : Loc nD τ sig) → Buf (Elt Ideal) ℓ) (h : Cert.Pre_KernelIdeal m) (c : Dev nD) :
    (∀ i, ∃ x : ℝ, (m ((c : Thread nD τ).loc main_arg3) : S200000x8.Idx → EReal) i = (x : EReal))
    ∧ (∀ i, ∃ x : ℝ, (m ((c : Thread nD τ).loc main_arg4) : S200000x8.Idx → EReal) i = (x : EReal))
    ∧ (∀ i, ∃ x : ℝ, (m ((c : Thread nD τ).loc main_arg9) : S128x8.Idx → EReal) i = (x : EReal))
    ∧ (∀ i, ∃ x : ℝ, (m ((c : Thread nD τ).loc main_arg10) : S128.Idx → EReal) i = (x : EReal))
    ∧ (∀ i, ∃ x : ℝ, (m ((c : Thread nD τ).loc main_arg15) : S128x128.Idx → EReal) i = (x : EReal))
    ∧ (∀ i, ∃ x : ℝ, (m ((c : Thread nD τ).loc main_arg16) : S128.Idx → EReal) i = (x : EReal))
    ∧ (∀ i, ∃ x : ℝ, (m ((c : Thread nD τ).loc main_arg17) : S128x128.Idx → EReal) i = (x : EReal))
    ∧ (∀ i, ∃ x : ℝ, (m ((c : Thread nD τ).loc main_arg18) : S128.Idx → EReal) i = (x : EReal))
    ∧ (∀ i, ∃ x : ℝ, (m ((c : Thread nD τ).loc main_arg31) : S128x128.Idx → EReal) i = (x : EReal))
    ∧ (∀ i, ∃ x : ℝ, (m ((c : Thread nD τ).loc main_arg32) : S128.Idx → EReal) i = (x : EReal)) := by
  have h0 := congrFun (h c) ix0
  dsimp only [Cert.Pre_finite_inputs.fn, Cert.Pre_finite_inputs.fn_part1, Cert.Pre_finite_inputs.fn_part2, Cert.Pre_finite_inputs.fn_part3, Cert.Pre_finite_inputs.fn_part4, Cert.Pre_finite_inputs.fn_part5, Cert.Pre_finite_inputs.fn_part6, Cert.Pre_finite_inputs.fn_part7, Cert.Pre_finite_inputs.fn_part8, Cert.Pre_finite_inputs.fn_part9] at h0
  simp only [Idealize.ShloMosaic.andi, IntOp.andi_eq_one] at h0
  obtain ⟨⟨⟨⟨⟨⟨⟨⟨⟨⟨⟨⟨⟨⟨⟨⟨⟨⟨⟨⟨⟨⟨⟨⟨⟨⟨⟨⟨⟨⟨⟨⟨-, -⟩, -⟩, a3⟩, a4⟩, -⟩, -⟩, -⟩, -⟩, a9⟩, a10⟩, -⟩, -⟩, -⟩, -⟩, a15⟩, a16⟩, a17⟩, a18⟩, -⟩, -⟩, -⟩, -⟩, -⟩, -⟩, -⟩, -⟩, -⟩, -⟩, -⟩, -⟩, a31⟩, a32⟩ := h0
  exact ⟨all_real _ _ _ _ a3, all_real _ _ _ _ a4, all_real _ _ _ _ a9, all_real _ _ _ _ a10, all_real _ _ _ _ a15,
    all_real _ _ _ _ a16, all_real _ _ _ _ a17, all_real _ _ _ _ a18, all_real _ _ _ _ a31, all_real _ _ _ _ a32⟩

end Cert.KernelIdeal.Val

end
-- ==== Proof.RefArgs.lean ====
import proofs.«404624_j46557445488821_3_alg».proof.Proof.RefRun
import Idealize.ShloMosaic.Lib.StableHlo.Run

noncomputable section

namespace Cert.Ref

open Cert.ReferenceIdeal Idealize.ShloMosaic Idealize.ShloMosaic.TcCoe Idealize.SL.Sem Idealize.ShloMosaic.StableHlo

variable {F : FTy → Type} [FloatOps F]

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29, main_arg30, main_arg31, main_arg32]

def NoWrite (B : List (Ref sig .tc)) (l : List (HloOp τ sig (Elt F))) : Prop :=
  l.Forall fun op => ∃ y : Ref sig .tc, op.writes = {Proc.devRef .tc y} ∧ y ∉ B

theorem after_keeps {B : List (Ref sig .tc)} {l : List (HloOp τ sig (Elt F))} (h : NoWrite B l) (V : Valuation τ sig (Elt F))
    {b : Ref sig .tc} (hb : b ∈ B) : after l V (Proc.devRef .tc b) = V (Proc.devRef .tc b) :=
  after_of_forall_not_mem l V fun op hop hm => by
    obtain ⟨y, hy, hn⟩ := (List.forall_iff_forall_mem.mp h) op hop
    rw [hy, Finset.mem_singleton] at hm
    exact hn (Proc.devRef_injective _ hm ▸ hb)

theorem idx_lt_of_mem_argRefs : ∀ a ∈ argRefs, a.idx.val < 33 := by decide

-- the arguments are the first 33 buffers; every operation's result is named after them
theorem ops_keeps : NoWrite argRefs (ops (F := F)) := by
  repeat' refine And.intro ?_ ?_
  all_goals exact ⟨_, rfl, fun hm => absurd (idx_lt_of_mem_argRefs _ hm) (by decide)⟩

theorem RB_keeps : NoWrite (main_v15 :: main_v28 :: argRefs) (RB (F := F)) := by
  repeat' refine And.intro ?_ ?_
  all_goals exact ⟨_, rfl, by decide⟩

theorem RC_keeps : NoWrite (main_v57 :: main_v15 :: main_v28 :: argRefs) (RC (F := F)) := by
  repeat' refine And.intro ?_ ?_
  all_goals exact ⟨_, rfl, by decide⟩

theorem after_ops_arg (V : Valuation τ sig (Elt F)) {a : Ref sig .tc} (ha : a ∈ argRefs) :
    after (ops (F := F)) V (Proc.devRef .tc a) = V (Proc.devRef .tc a) :=
  after_keeps ops_keeps V ha

end Cert.Ref

end
-- ==== Proof.RefFinite.lean ====
import proofs.«404624_j46557445488821_3_alg».proof.Proof.RefRun
import proofs.«404624_j46557445488821_3_alg».proof.Proof.KISpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost
import Mathlib.Data.EReal.Inv

noncomputable section
namespace Cert.Ref.Val
open Cert.ReferenceIdeal Cert.ReferenceIdeal.Gen Cert.Ref Idealize.ShloMosaic Idealize.ShloMosaic.TcCoe Idealize.ShloMosaic.StableHlo Idealize.ShloMosaic.ValueIdx

-- a sigmoid is real at every extended real: 0 at −∞, 1 at +∞
theorem sigmoid_real (x : EReal) : ∃ y : ℝ, Ideal.div 1 (1 + Ideal.exp (-x)) = (y : EReal) := by
  induction x using EReal.rec with
  | bot => exact ⟨0, Ideal.logistic_bot⟩
  | top => exact ⟨1, Ideal.logistic_top⟩
  | coe r => exact ⟨_, Ideal.logistic_coe r⟩

theorem tanh_real (x : EReal) : ∃ y : ℝ, Ideal.tanh x = (y : EReal) := by
  induction x using EReal.rec with
  | bot => exact ⟨-1, by rw [Ideal.tanh_bot, EReal.coe_neg, EReal.coe_one]⟩
  | top => exact ⟨1, by rw [Ideal.tanh_top, EReal.coe_one]⟩
  | coe r => exact ⟨Real.tanh r, Ideal.tanh_coe r⟩

theorem sum_real {ι : Type} (s : Finset ι) (f : ι → EReal) (h : ∀ i ∈ s, ∃ x : ℝ, f i = x) :
    ∃ x : ℝ, ∑ i ∈ s, f i = x :=
  Finset.sum_induction f (fun a => ∃ x : ℝ, a = x) (fun a b ha hb => Cert.Spec.real_add ha hb) ⟨0, EReal.coe_zero.symm⟩ h

abbrev headOps : List (HloOp τ sig (Elt Ideal)) := (RC (F := Ideal)).take 43

theorem head_arg31 (V : Valuation τ sig (Elt Ideal)) : after headOps V (Proc.devRef .tc main_arg31) = V (Proc.devRef .tc main_arg31) :=
  after_of_forall_not_mem headOps V (by decide)
theorem head_arg32 (V : Valuation τ sig (Elt Ideal)) : after headOps V (Proc.devRef .tc main_arg32) = V (Proc.devRef .tc main_arg32) :=
  after_of_forall_not_mem headOps V (by decide)

-- the query is a real affine image of a sigmoid times a hyperbolic tangent, both real whatever their arguments
theorem tail_real (V : Valuation τ sig (Elt Ideal))
    (hW : ∀ i : S128x128.Idx, ∃ x : ℝ, (V (Proc.devRef .tc main_arg31) : S128x128.Idx → EReal) i = (x : EReal))
    (hb : ∀ i : S128.Idx, ∃ x : ℝ, (V (Proc.devRef .tc main_arg32) : S128.Idx → EReal) i = (x : EReal)) (i : S1x128.Idx) :
    ∃ x : ℝ, (after ((RC (F := Ideal)).drop 43) V (Proc.devRef .tc main_v106) : S1x128.Idx → EReal) i = (x : EReal) := by
  rw [show (RC (F := Ideal)).drop 43 = [_, _, _, _, _, _, _, _, _, _, _, _, _, _] from rfl]
  after_results
  rw [addf_apply]
  refine Cert.Spec.real_add ?_ (hb _)
  simp only [Host.dotGeneral]
  rw [Ideal.dotGeneral_apply]
  refine sum_real _ _ fun k _ => Cert.Spec.real_mul ?_ (hW _)
  rw [mulf_apply]
  refine Cert.Spec.real_mul ?_ (tanh_real _)
  rw [hostDivf_apply, addf_apply, broadcastInDim_scalar_apply, constant_apply, Ideal.ofBits_one_f32]
  exact sigmoid_real _

theorem att_real (V : Valuation τ sig (Elt Ideal))
    (hW : ∀ i : S128x128.Idx, ∃ x : ℝ, (V (Proc.devRef .tc main_arg31) : S128x128.Idx → EReal) i = (x : EReal))
    (hb : ∀ i : S128.Idx, ∃ x : ℝ, (V (Proc.devRef .tc main_arg32) : S128.Idx → EReal) i = (x : EReal)) (l : Fin 128) :
    ∃ x : ℝ, (StableHlo.after (RC (F := Ideal)) V (Proc.devRef .tc main_v106) : S1x128.Idx → EReal) (ValueIdx.ix2 0 l) = (x : EReal) := by
  rw [← List.take_append_drop 43 (RC (F := Ideal)), after_append]
  exact tail_real (after headOps V) (by rw [head_arg31]; exact hW) (by rw [head_arg32]; exact hb) _

end Cert.Ref.Val
end
-- ==== Proof.KIDf2R.lean ====
import proofs.«404624_j46557445488821_3_alg».proof.Proof.RefVals
import proofs.«404624_j46557445488821_3_alg».proof.Proof.RefArgs
noncomputable section

namespace Cert.Alg

open Idealize.ShloMosaic Idealize.ShloMosaic.TcCoe Idealize.ShloMosaic.StableHlo Idealize.ShloMosaic.ValueIdx
open Cert.Spec Cert.Ref.Val

section RSide
variable (Ra : Valuation Cert.ReferenceIdeal.τ Cert.ReferenceIdeal.sig (Elt Ideal))

abbrev Rc : Valuation Cert.ReferenceIdeal.τ Cert.ReferenceIdeal.sig (Elt Ideal) :=
  after (Cert.Ref.RC (F := Ideal)) (after (Cert.Ref.RB (F := Ideal)) Ra)

theorem rc_v57 : Rc Ra (Proc.devRef .tc Cert.ReferenceIdeal.main_v57)
    = after (Cert.Ref.RB (F := Ideal)) Ra (Proc.devRef .tc Cert.ReferenceIdeal.main_v57) :=
  Cert.Ref.after_keeps Cert.Ref.RC_keeps _ List.mem_cons_self

-- neither stretch writes a hero group's embeddings or an argument
theorem rc_keeps {b : Ref Cert.ReferenceIdeal.sig .tc}
    (hb : b ∈ Cert.ReferenceIdeal.main_v15 :: Cert.ReferenceIdeal.main_v28 :: Cert.Ref.argRefs) :
    Rc Ra (Proc.devRef .tc b) = Ra (Proc.devRef .tc b) :=
  (Cert.Ref.after_keeps Cert.Ref.RC_keeps _ (List.mem_cons_of_mem _ hb)).trans (Cert.Ref.after_keeps Cert.Ref.RB_keeps _ hb)

theorem rcol (idx : Fin 400010) :
    (after (Cert.Ref.RD (F := Ideal)) (Rc Ra) (Proc.devRef .tc Cert.ReferenceIdeal.main_v108) : Cert.ReferenceIdeal.S1x400010.Idx → EReal) (ix2 0 idx)
      = ∑ l : Fin 128, Q106 (Rc Ra) l *
          (if h5 : idx.val < 5 then (Rc Ra (Proc.devRef .tc Cert.ReferenceIdeal.main_v15) : Cert.ReferenceIdeal.S5x128.Idx → EReal) (ix2 ⟨idx.val, h5⟩ l)
            else if h10 : idx.val < 10 then (Rc Ra (Proc.devRef .tc Cert.ReferenceIdeal.main_v28) : Cert.ReferenceIdeal.S5x128.Idx → EReal) (ix2 ⟨idx.val - 5, by omega⟩ l)
            else if h : idx.val < 200010 then emb (X3 Ra) (Wb9 Ra) (bb10 Ra) (Wg15 Ra) (bg16 Ra) ⟨idx.val - 10, by omega⟩ l
            else emb (X4 Ra) (Wb9 Ra) (bb10 Ra) (Wg17 Ra) (bg18 Ra) ⟨idx.val - 200010, by omega⟩ l) := by
  rw [ref_att (Rc Ra) idx]
  show (_ : EReal) = _
  refine Finset.sum_congr rfl fun l _ => congrArg (fun z : EReal => Q106 (Rc Ra) l * z) ?_
  unfold E57
  rw [rc_v57 Ra, rc_keeps Ra (b := Cert.ReferenceIdeal.main_v15) (by decide), rc_keeps Ra (b := Cert.ReferenceIdeal.main_v28) (by decide)]
  exact ref_cat Ra idx l

theorem rc_arg16 (l : Fin 128) :
    (Rc Ra (Proc.devRef .tc Cert.ReferenceIdeal.main_arg16) : Cert.ReferenceIdeal.S128.Idx → EReal) (ix1 l) = bg16 Ra l := by
  rw [rc_keeps Ra (b := Cert.ReferenceIdeal.main_arg16) (by decide)]
  rfl
theorem rc_arg18 (l : Fin 128) :
    (Rc Ra (Proc.devRef .tc Cert.ReferenceIdeal.main_arg18) : Cert.ReferenceIdeal.S128.Idx → EReal) (ix1 l) = bg18 Ra l := by
  rw [rc_keeps Ra (b := Cert.ReferenceIdeal.main_arg18) (by decide)]
  rfl
end RSide

end Cert.Alg
end
-- ==== Proof.KIDf2Arg.lean ====
import proofs.«404624_j46557445488821_3_alg».proof.Proof.KILock
import proofs.«404624_j46557445488821_3_alg».proof.Proof.KIHostSide
import proofs.«404624_j46557445488821_3_alg».proof.Proof.KIPre
import proofs.«404624_j46557445488821_3_alg».proof.Proof.RefVals
import proofs.«404624_j46557445488821_3_alg».proof.Proof.RefArgs
import proofs.«404624_j46557445488821_3_alg».proof.Proof.RefFinite
import proofs.«404624_j46557445488821_3_alg».proof.Proof.KIDf2R

set_option maxRecDepth 16384

noncomputable section

namespace Cert.Alg

open Idealize.ShloMosaic Idealize.ShloMosaic.TcCoe Idealize.ShloMosaic.StableHlo Idealize.ShloMosaic.ValueIdx
open Cert.Spec Cert.Ref.Val Cert.KernelIdeal

/-- A one-row array is determined by its row. -/
theorem row_ext {n : ℕ} {f g : (⟨2, ![1, n]⟩ : Shape).Idx → EReal} (h : ∀ j, f (ix2 0 j) = g (ix2 0 j)) : f = g := by
  funext i
  obtain ⟨a, j, rfl⟩ : ∃ (a : Fin 1) (j : Fin n), i = ix2 a j := ⟨i 0, i 1, eq_ix2 i⟩
  obtain rfl : a = 0 := Subsingleton.elim _ _
  exact h j

section Args
variable {m : (ℓ : Loc nD τ sig) → Buf (Elt Ideal) ℓ} [Cert.Pre_finite_inputs.Facts] (hpre : Cert.Pre_KernelIdeal m) {c : Dev nD}
  {Ra : Valuation Cert.ReferenceIdeal.τ Cert.ReferenceIdeal.sig (Elt Ideal)}
  (hA : Agree (τ := τ) Cert.Lock.QA (Hand.V7 (F := Ideal) m c) Ra)
include hA

/-- Neither program writes an argument before the first call, so both hold each argument as given. -/
theorem arg_agree (a : Ref sig .tc) (a' : Ref Cert.ReferenceIdeal.sig .tc) (ha : a ∈ Hand.argRefs) (hin : (a, a') ∈ Cert.Lock.QA) :
    HEq (m ((c : Thread nD τ).loc a)) (Ra (Proc.devRef .tc a')) :=
  (heq_of_eq (Hand.V7_arg m c a ha).symm).trans (hA.get hin)

theorem arg3_eq (r : Fin 200000) (i : Fin 8) : (m ((c : Thread nD τ).loc main_arg3) : S200000x8.Idx → EReal) (ix2 r i) = X3 Ra r i :=
  congrFun (eq_of_heq (arg_agree hA main_arg3 Cert.ReferenceIdeal.main_arg3 (by decide) (by decide))) (ix2 r i)
theorem arg4_eq (r : Fin 200000) (i : Fin 8) : (m ((c : Thread nD τ).loc main_arg4) : S200000x8.Idx → EReal) (ix2 r i) = X4 Ra r i :=
  congrFun (eq_of_heq (arg_agree hA main_arg4 Cert.ReferenceIdeal.main_arg4 (by decide) (by decide))) (ix2 r i)
theorem arg9_eq (k : Fin 128) (i : Fin 8) : (m ((c : Thread nD τ).loc main_arg9) : S128x8.Idx → EReal) (ix2 k i) = Wb9 Ra k i :=
  congrFun (eq_of_heq (arg_agree hA main_arg9 Cert.ReferenceIdeal.main_arg9 (by decide) (by decide))) (ix2 k i)
theorem arg10_eq (k : Fin 128) : (m ((c : Thread nD τ).loc main_arg10) : S128.Idx → EReal) (ix1 k) = bb10 Ra k :=
  congrFun (eq_of_heq (arg_agree hA main_arg10 Cert.ReferenceIdeal.main_arg10 (by decide) (by decide))) (ix1 k)
theorem arg15_eq (j k : Fin 128) : (m ((c : Thread nD τ).loc main_arg15) : S128x128.Idx → EReal) (ix2 j k) = Wg15 Ra j k :=
  congrFun (eq_of_heq (arg_agree hA main_arg15 Cert.ReferenceIdeal.main_arg15 (by decide) (by decide))) (ix2 j k)
theorem arg16_eq (j : Fin 128) : (m ((c : Thread nD τ).loc main_arg16) : S128.Idx → EReal) (ix1 j) = bg16 Ra j :=
  congrFun (eq_of_heq (arg_agree hA main_arg16 Cert.ReferenceIdeal.main_arg16 (by decide) (by decide))) (ix1 j)
theorem arg17_eq (j k : Fin 128) : (m ((c : Thread nD τ).loc main_arg17) : S128x128.Idx → EReal) (ix2 j k) = Wg17 Ra j k :=
  congrFun (eq_of_heq (arg_agree hA main_arg17 Cert.ReferenceIdeal.main_arg17 (by decide) (by decide))) (ix2 j k)
theorem arg18_eq (j : Fin 128) : (m ((c : Thread nD τ).loc main_arg18) : S128.Idx → EReal) (ix1 j) = bg18 Ra j :=
  congrFun (eq_of_heq (arg_agree hA main_arg18 Cert.ReferenceIdeal.main_arg18 (by decide) (by decide))) (ix1 j)

include hpre
/-- The attention query is a layer of real weights and bias applied to reals. -/
theorem q_real (l : Fin 128) : ∃ x : ℝ, Q106 (Rc Ra) l = (x : EReal) := by
  have e31 : (m ((c : Thread nD τ).loc main_arg31) : S128x128.Idx → EReal) = Ra (Proc.devRef .tc Cert.ReferenceIdeal.main_arg31) :=
    eq_of_heq (arg_agree hA main_arg31 Cert.ReferenceIdeal.main_arg31 (by decide) (by decide))
  have e32 : (m ((c : Thread nD τ).loc main_arg32) : S128.Idx → EReal) = Ra (Proc.devRef .tc Cert.ReferenceIdeal.main_arg32) :=
    eq_of_heq (arg_agree hA main_arg32 Cert.ReferenceIdeal.main_arg32 (by decide) (by decide))
  refine att_real (after (Cert.Ref.RB (F := Ideal)) Ra) (fun i => ?_) (fun i => ?_) l
  · rw [Cert.Ref.after_keeps Cert.Ref.RB_keeps Ra (b := Cert.ReferenceIdeal.main_arg31) (by decide), ← e31]
    exact (Val.pre_real m hpre c).2.2.2.2.2.2.2.2.1 i
  · rw [Cert.Ref.after_keeps Cert.Ref.RB_keeps Ra (b := Cert.ReferenceIdeal.main_arg32) (by decide), ← e32]
    exact (Val.pre_real m hpre c).2.2.2.2.2.2.2.2.2 i
end Args

end Cert.Alg

end
-- ==== Proof.KIDf1.lean ====
import proofs.«404624_j46557445488821_3_alg».proof.Proof.KIRun
import proofs.«404624_j46557445488821_3_alg».proof.Proof.KIPool
import proofs.«404624_j46557445488821_3_alg».proof.Proof.KIHostVals
import proofs.«404624_j46557445488821_3_alg».proof.Proof.KIAtt
import proofs.«404624_j46557445488821_3_alg».proof.Proof.RefVals
import proofs.«404624_j46557445488821_3_alg».proof.Proof.KILock
import proofs.«404624_j46557445488821_3_alg».proof.Proof.KISpec
import proofs.«404624_j46557445488821_3_alg».proof.Proof.KIAcc
import proofs.«404624_j46557445488821_3_alg».proof.Proof.KIDf2Arg
import Idealize.ShloMosaic.Lib.ValueIdx
import Idealize.ShloMosaic.Lib.StableHlo.Run

set_option maxRecDepth 16384

noncomputable section

namespace Cert.Alg

open Idealize.ShloMosaic Idealize.ShloMosaic.TcCoe Idealize.ShloMosaic.StableHlo Idealize.ShloMosaic.ValueIdx
open Cert.KernelIdeal Cert.KernelIdeal.Acc Cert.KernelIdeal.Hand Cert.KernelIdeal.Val Cert.Spec

variable (m : (ℓ : Loc nD τ sig) → Buf (Elt Ideal) ℓ) (c : Dev nD)
  (Ra : Valuation Cert.ReferenceIdeal.τ Cert.ReferenceIdeal.sig (Elt Ideal))
  (hA : Agree (τ := τ) Cert.Lock.QA (V7 (F := Ideal) m c) Ra)
include hA

/-- Padding repeats rows, and a maximum does not change when rows are repeated. -/
theorem pool_eq (g : Fin 2) (j : Fin 128) (Xr : Fin 200000 → Fin 8 → EReal) (G : Fin 128 → Fin 128 → EReal) (d : Fin 128 → EReal)
    (hX : ∀ r i, X (B7 m) c g r i = Xr (padRow r) i) (hG : ∀ j k, Wg (B7 m) c g j k = G j k) (hd : ∀ j, bg (B7 m) c g j = d j) :
    (X8 m c (Proc.devRef .tc main_v51) : S2x1x128.Idx → EReal) (ix3 g 0 j)
      = Finset.univ.sup fun r : Fin 200000 => emb Xr (Cert.Ref.Val.Wb9 Ra) (Cert.Ref.Val.bb10 Ra) G d r j := by
  refine (congrFun (Wexit0_out (V7 (F := Ideal) m) c) (ix3 g 0 j)).trans ((pool_val (B7 m) c g j).trans ?_)
  rw [show X (B7 m) c g = fun r i => Xr (padRow r) i from funext fun r => funext (hX r),
    show Wb (B7 m) c = Cert.Ref.Val.Wb9 Ra from funext fun k => funext fun i => (Wb_B7 m c k i).trans (arg9_eq hA k i),
    show bb (B7 m) c = Cert.Ref.Val.bb10 Ra from funext fun k => (bb_B7 m c k).trans (arg10_eq hA k),
    show Wg (B7 m) c g = G from funext fun j => funext (hG j), show bg (B7 m) c g = d from funext hd]
  exact sup_pad fun r => emb Xr _ _ G d r j

theorem df1_0 : HEq (after (Cert.Lock.KB2 (F := Ideal)) (X8 m c) (Proc.devRef .tc main_v53))
    (after (Cert.Ref.RB (F := Ideal)) Ra (Proc.devRef .tc Cert.ReferenceIdeal.main_v43)) := by
  refine heq_of_eq (row_ext (n := 128) fun j => ?_)
  refine (pooled_row0 (X8 m c) j).trans (Eq.trans ?_ (Cert.Ref.Val.ref_max0 Ra j).symm)
  exact pool_eq m c Ra hA 0 j _ _ _ (fun r i => (X_B7_0 m c r i).trans (arg3_eq hA _ i))
    (fun j k => (Wg_B7_0 m c j k).trans (arg15_eq hA j k)) fun j => (bg_B7_0 m c j).trans (arg16_eq hA j)

theorem df1_1 : HEq (after (Cert.Lock.KB2 (F := Ideal)) (X8 m c) (Proc.devRef .tc main_v55))
    (after (Cert.Ref.RB (F := Ideal)) Ra (Proc.devRef .tc Cert.ReferenceIdeal.main_v56)) := by
  refine heq_of_eq (row_ext (n := 128) fun j => ?_)
  refine (pooled_row1 (X8 m c) j).trans (Eq.trans ?_ (Cert.Ref.Val.ref_max1 Ra j).symm)
  exact pool_eq m c Ra hA 1 j _ _ _ (fun r i => (X_B7_1 m c r i).trans (arg4_eq hA _ i))
    (fun j k => (Wg_B7_1 m c j k).trans (arg17_eq hA j k)) fun j => (bg_B7_1 m c j).trans (arg18_eq hA j)

end Cert.Alg

end
-- ==== Proof.KILogits.lean ====
import proofs.«404624_j46557445488821_3_alg».proof.Proof.KIRegion1
import proofs.«404624_j46557445488821_3_alg».proof.Proof.KIPay
import proofs.«404624_j46557445488821_3_alg».proof.Proof.KISpec
import proofs.«404624_j46557445488821_3_alg».proof.Proof.KIAcc
import Idealize.ShloMosaic.Lib.Pipeline.Value

set_option maxRecDepth 16384

noncomputable section

namespace Cert.KernelIdeal.Val

open Cert.KernelIdeal Cert.KernelIdeal.Gen Cert.KernelIdeal.Hand Cert.KernelIdeal.Acc
open Idealize.ShloMosaic Idealize.ShloMosaic.TcCoe Idealize.ShloMosaic.ValueIdx
open Idealize.ShloMosaic.Pipeline (Dat)

def G1 (V : Acc.Bufs) (c : Dev nD) : S2x1x204800.Idx → EReal := fun i =>
  ∑ k : Fin 128, q V c (i 0) k * Cert.Spec.hid (X V c (i 0)) (Wb V c) (bb V c) (i 2) k

theorem idx_facts1 : ∀ t : Fin cfg1.N,
    win1_4.index t (0 : Fin 3) = t.val / 25 ∧ win1_4.index t (1 : Fin 3) = 0 ∧ win1_4.index t (2 : Fin 3) = t.val % 25
    ∧ win1_0.index t (0 : Fin 3) = t.val / 25 ∧ win1_0.index t (1 : Fin 3) = t.val % 25 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val / 25 ∧ win1_3.index t (1 : Fin 3) = 0 ∧ win1_3.index t (2 : Fin 3) = 0 :=
  (by decide +kernel : ∀ t : Fin grid1.N, _)

/-- The tile of point t is tile t % 25 of group t / 25's row of G1. -/
theorem flushed1_eq (V : Acc.Bufs) (c : Dev nD) (t : Fin cfg1.N) :
    (dat1 (F := Ideal) V c).flushed 4 t = ((cfg1.win 4).blk t).view.read (Elt Ideal) (G1 V c) := by
  show (cfg1.win 4).cut (grid1.coords t) ((dat1 (F := Ideal) V c).after 4 t) = _
  rw [after1_4]
  have e := idx_facts1 t
  have hN : t.val < 50 := lt_of_lt_of_eq t.isLt (show cfg1.N = 50 from N_1)
  funext y
  obtain ⟨a, b, n, rfl⟩ : ∃ (a : Fin 1) (b : Fin 1) (n : Fin 8192), y = ix3 a b n := ⟨y 0, y 1, y 2, eq_ix3 y⟩
  obtain rfl : a = 0 := Subsingleton.elim _ _
  obtain rfl : b = 0 := Subsingleton.elim _ _
  have hn := n.isLt
  obtain ⟨g, hg⟩ : ∃ g : Fin 2, g.val = t.val / 25 := ⟨⟨t.val / 25, by omega⟩, rfl⟩
  obtain ⟨R, hR⟩ : ∃ R : Fin 204800, R.val = t.val % 25 * 8192 + n.val := ⟨⟨t.val % 25 * 8192 + n.val, by omega⟩, rfl⟩
  have hemb : ((cfg1.win 4).blk t).view.emb (ix3 (0 : Fin 1) (0 : Fin 1) n) = ix3 g (0 : Fin 1) R :=
    funext fun a => Fin.ext (by
      match a with
      | ⟨0, _⟩ => show win1_4.index t 0 * 1 + 1 * 0 = g.val; omega
      | ⟨1, _⟩ => show win1_4.index t 1 * 1 + 1 * 0 = 0; omega
      | ⟨2, _⟩ => show win1_4.index t 2 * 8192 + 1 * n.val = R.val; omega)
  have e0 : ∀ i, (iblk1 (F := Ideal) V c 0 t : S1x8192x8.Idx → EReal) (ix3 0 n i) = X V c g R i := fun i =>
    congrArg (V c main_v39 : S2x204800x8.Idx → EReal) (funext fun a => Fin.ext (by
      match a with
      | ⟨0, _⟩ => show win1_0.index t 0 * 1 + 1 * 0 = g.val; omega
      | ⟨1, _⟩ => show win1_0.index t 1 * 8192 + 1 * n.val = R.val; omega
      | ⟨2, _⟩ => show win1_0.index t 2 * 8 + 1 * i.val = i.val; omega))
  have e1 : ∀ k i, (iblk1 (F := Ideal) V c 1 t : S128x8.Idx → EReal) (ix2 k i) = Wb V c k i := fun k i =>
    congrArg (V c main_v40 : S128x8.Idx → EReal) (funext fun a => Fin.ext (by
      match a with
      | ⟨0, _⟩ => show win1_1.index t 0 * 128 + 1 * k.val = k.val; omega
      | ⟨1, _⟩ => show win1_1.index t 1 * 8 + 1 * i.val = i.val; omega))
  have e2 : ∀ k, (iblk1 (F := Ideal) V c 2 t : S1x128.Idx → EReal) (ix2 0 k) = bb V c k := fun k =>
    congrArg (V c main_v41 : S1x128.Idx → EReal) (funext fun a => Fin.ext (by
      match a with
      | ⟨0, _⟩ => show win1_2.index t 0 * 1 + 1 * 0 = 0; omega
      | ⟨1, _⟩ => show win1_2.index t 1 * 128 + 1 * k.val = k.val; omega))
  have e3 : ∀ k, (iblk1 (F := Ideal) V c 3 t : S1x1x128.Idx → EReal) (ix3 0 0 k) = q V c g k := fun k =>
    congrArg (V c main_v117 : S2x1x128.Idx → EReal) (funext fun a => Fin.ext (by
      match a with
      | ⟨0, _⟩ => show win1_3.index t 0 * 1 + 1 * 0 = g.val; omega
      | ⟨1, _⟩ => show win1_3.index t 1 * 1 + 1 * 0 = 0; omega
      | ⟨2, _⟩ => show win1_3.index t 2 * 128 + 1 * k.val = k.val; omega))
  rw [View.read_apply]
  show k1_pay1 (iblk1 (F := Ideal) V c 0 t) (iblk1 (F := Ideal) V c 1 t) (iblk1 (F := Ideal) V c 2 t) (iblk1 (F := Ideal) V c 3 t) (ix3 (0 : Fin 1) (0 : Fin 1) n)
    = G1 V c (((cfg1.win 4).blk t).view.emb (ix3 (0 : Fin 1) (0 : Fin 1) n))
  rw [hemb, PayVal.pay1k1_apply]
  show _ = ∑ k : Fin 128, q V c g k * Cert.Spec.hid (X V c g) (Wb V c) (bb V c) R k
  unfold Cert.Spec.hid
  simp only [e0, e1, e2, e3]

/-- Index (g, 0, n) lies in the block of point 25 g + n / 8192. -/
theorem cover1 (i : S2x1x204800.Idx) :
    ∃ t : Fin cfg1.N, (cfg1.win 4).flush t = true ∧ i ∈ ((cfg1.win 4).blk t).view.set := by
  have h0 : (i 0).val < 2 := (i 0).isLt
  have h1 : (i 1).val < 1 := (i 1).isLt
  have h2 : (i 2).val < 204800 := (i 2).isLt
  obtain ⟨t, ht⟩ : ∃ t : Fin cfg1.N, t.val = 25 * (i 0).val + (i 2).val / 8192 :=
    ⟨⟨25 * (i 0).val + (i 2).val / 8192, by rw [show cfg1.N = 50 from N_1]; omega⟩, rfl⟩
  have e := idx_facts1 t
  refine ⟨t, flush1_4 _, ?_⟩
  show i ∈ ((View.whole main_v118).slice (win1_4.rect t)).set
  rw [View.set_slice_whole, Rect.mem_set_unit]
  intro a
  match a with
  | ⟨0, _⟩ => show win1_4.index t 0 * 1 ≤ (i 0).val ∧ (i 0).val < win1_4.index t 0 * 1 + 1; omega
  | ⟨1, _⟩ => show win1_4.index t 1 * 1 ≤ (i 1).val ∧ (i 1).val < win1_4.index t 1 * 1 + 1; omega
  | ⟨2, _⟩ => show win1_4.index t 2 * 8192 ≤ (i 2).val ∧ (i 2).val < win1_4.index t 2 * 8192 + 8192; omega

theorem final1 (V : Acc.Bufs) (c : Dev nD) : (dat1 (F := Ideal) V c).arrAt 4 cfg1.N = G1 V c :=
  (dat1 (F := Ideal) V c).arrAt_eq_of_cover 4 (G1 V c) (fun t _ => flushed1_eq V c t) cover1

theorem logits_val (V : Acc.Bufs) (c : Dev nD) (g : Fin 2) (n : Fin 204800) :
    ((dat1 (F := Ideal) V c).arrAt 4 cfg1.N : S2x1x204800.Idx → EReal) (ix3 g 0 n)
      = ∑ k : Fin 128, q V c g k * Cert.Spec.hid (X V c g) (Wb V c) (bb V c) n k := by
  rw [final1]
  rfl

end Cert.KernelIdeal.Val
-- ==== Proof.KIDf2.lean ====
import proofs.«404624_j46557445488821_3_alg».proof.Proof.KISpec
import proofs.«404624_j46557445488821_3_alg».proof.Proof.KIAcc
import proofs.«404624_j46557445488821_3_alg».proof.Proof.KIRun
import proofs.«404624_j46557445488821_3_alg».proof.Proof.KILogits
import proofs.«404624_j46557445488821_3_alg».proof.Proof.KIAtt
import proofs.«404624_j46557445488821_3_alg».proof.Proof.KIHostVals
import proofs.«404624_j46557445488821_3_alg».proof.Proof.KILock
import proofs.«404624_j46557445488821_3_alg».proof.Proof.RefVals
import proofs.«404624_j46557445488821_3_alg».proof.Proof.RefArgs
import proofs.«404624_j46557445488821_3_alg».proof.Proof.RefFinite
import proofs.«404624_j46557445488821_3_alg».proof.Proof.KIPre
import proofs.«404624_j46557445488821_3_alg».proof.Proof.KIDf2R
import proofs.«404624_j46557445488821_3_alg».proof.Proof.KIDf2Arg

set_option maxRecDepth 16384

noncomputable section

namespace Cert.Alg

open Cert.Spec

theorem padRow_mk (v : ℕ) (h' : v < 204800) (h : v < 200000) : padRow ⟨v, h'⟩ = ⟨v, h⟩ := by
  apply Fin.ext
  simp [padRow, h]

end Cert.Alg

namespace Cert.Alg

open Idealize.ShloMosaic Idealize.ShloMosaic.TcCoe Idealize.ShloMosaic.StableHlo Idealize.ShloMosaic.ValueIdx
open Cert.KernelIdeal Cert.KernelIdeal.Hand Cert.KernelIdeal.Acc Cert.KernelIdeal.Val Cert.Spec

section KSide
variable (m : (ℓ : Loc nD τ sig) → Buf (Elt Ideal) ℓ) (c : Dev nD)

/-- A non-hero column folds the query through the group layer; distributing the finite sums of reals gives the query against the embedding. -/
theorem kcol (Kc : Valuation τ sig (Elt Ideal)) (hV11 : V11 (X8 m) c = after (Cert.Lock.KD1 (F := Ideal)) Kc)
    (a : Fin 128 → EReal) (EH ENH : Fin 5 → Fin 128 → EReal) (A3 A4 : Fin 200000 → Fin 8 → EReal)
    (A9 : Fin 128 → Fin 8 → EReal) (A10 : Fin 128 → EReal) (A15 A17 : Fin 128 → Fin 128 → EReal) (A16 A18 : Fin 128 → EReal)
    (haX : ∀ l, (X12 m c (Proc.devRef .tc main_v104) : S1x128.Idx → EReal) (ix2 0 l) = a l)
    (haD : ∀ l, (V11 (X8 m) c (Proc.devRef .tc main_v104) : S1x128.Idx → EReal) (ix2 0 l) = a l)
    (haC : ∀ l, (Kc (Proc.devRef .tc main_v104) : S1x128.Idx → EReal) (ix2 0 l) = a l)
    (hEH : ∀ r l, (X12 m c (Proc.devRef .tc main_v15) : S5x128.Idx → EReal) (ix2 r l) = EH r l)
    (hENH : ∀ r l, (X12 m c (Proc.devRef .tc main_v28) : S5x128.Idx → EReal) (ix2 r l) = ENH r l)
    (h16C : ∀ l, (Kc (Proc.devRef .tc main_arg16) : S128.Idx → EReal) (ix1 l) = A16 l)
    (h18C : ∀ l, (Kc (Proc.devRef .tc main_arg18) : S128.Idx → EReal) (ix1 l) = A18 l)
    (h3 : ∀ r i, (m ((c : Thread nD τ).loc main_arg3) : S200000x8.Idx → EReal) (ix2 r i) = A3 r i)
    (h4 : ∀ r i, (m ((c : Thread nD τ).loc main_arg4) : S200000x8.Idx → EReal) (ix2 r i) = A4 r i)
    (h9 : ∀ k i, (m ((c : Thread nD τ).loc main_arg9) : S128x8.Idx → EReal) (ix2 k i) = A9 k i)
    (h10 : ∀ k, (m ((c : Thread nD τ).loc main_arg10) : S128.Idx → EReal) (ix1 k) = A10 k)
    (h15 : ∀ j k, (m ((c : Thread nD τ).loc main_arg15) : S128x128.Idx → EReal) (ix2 j k) = A15 j k)
    (h17 : ∀ j k, (m ((c : Thread nD τ).loc main_arg17) : S128x128.Idx → EReal) (ix2 j k) = A17 j k)
    (h16 : ∀ j, (m ((c : Thread nD τ).loc main_arg16) : S128.Idx → EReal) (ix1 j) = A16 j)
    (h18 : ∀ j, (m ((c : Thread nD τ).loc main_arg18) : S128.Idx → EReal) (ix1 j) = A18 j)
    [Cert.Pre_finite_inputs.Facts] (hpre : Cert.Pre_KernelIdeal m) (ra : ∀ l, ∃ x : ℝ, a l = (x : EReal)) (idx : Fin 400010) :
    (after (Cert.Lock.KD2 (F := Ideal)) (X12 m c) (Proc.devRef .tc main_v131) : S1x400010.Idx → EReal) (ix2 0 idx)
      = ∑ l : Fin 128, a l *
          (if h5 : idx.val < 5 then EH ⟨idx.val, h5⟩ l
            else if h10 : idx.val < 10 then ENH ⟨idx.val - 5, by omega⟩ l
            else if h : idx.val < 200010 then emb A3 A9 A10 A15 A16 ⟨idx.val - 10, by omega⟩ l
            else emb A4 A9 A10 A17 A18 ⟨idx.val - 200010, by omega⟩ l) := by
  have hX8 : ∀ (c : Dev nD) (b : Ref sig .tc), b ≠ main_v51 → X8 m c (Proc.devRef .tc b) = V7 m c (Proc.devRef .tc b) :=
    fun c b hb => Wexit0_of_ne (V7 m) c b hb
  have hlg : ∀ (g : Fin 2) (A : Fin 200000 → Fin 8 → EReal) (G : Fin 128 → Fin 128 → EReal),
      (∀ r i, X (B7 m) c g r i = A (padRow r) i) → (∀ k, q (Vb m) c g k = ∑ l : Fin 128, a l * G l k) → ∀ n : Fin 204800,
      (X12 m c (Proc.devRef .tc main_v118) : S2x1x204800.Idx → EReal) (ix3 g 0 n)
        = ∑ k : Fin 128, (∑ l : Fin 128, a l * G l k) * hid A A9 A10 (padRow n) k := fun g A G hA hq n => by
    refine (congrFun (Wexit1_out (V11 (X8 m)) c) (ix3 g 0 n)).trans ((logits_val (Vb m) c g n).trans ?_)
    show (_ : EReal) = _
    refine Finset.sum_congr rfl fun k _ => ?_
    rw [hq k, show X (Vb m) c g = fun r i => A (padRow r) i from (X_B11 m c (X8 m) hX8 g).trans (funext fun r => funext (hA r)),
      show Wb (Vb m) c = A9 from (Wb_B11 m c (X8 m) hX8).trans (funext fun k => funext fun i => (Wb_B7 m c k i).trans (h9 k i)),
      show bb (Vb m) c = A10 from (bb_B11 m c (X8 m) hX8).trans (funext fun k => (bb_B7 m c k).trans (h10 k))]
    rfl
  have hlg0 := hlg 0 A3 A15 (fun r i => (X_B7_0 m c r i).trans (h3 _ i)) fun k => by
    refine (q_B11_0 m c (X8 m) hX8 k).trans (Finset.sum_congr rfl fun l _ => ?_)
    rw [show att (B11 (X8 m)) c l = a l from haD l, Wg_B7_0 m c l k, h15]
  have hlg1 := hlg 1 A4 A17 (fun r i => (X_B7_1 m c r i).trans (h4 _ i)) fun k => by
    refine (q_B11_1 m c (X8 m) hX8 k).trans (Finset.sum_congr rfl fun l _ => ?_)
    rw [show att (B11 (X8 m)) c l = a l from haD l, Wg_B7_1 m c l k, h17]
  have e1 : ∀ b : Ref sig .tc, b ≠ main_v118 → X12 m c (Proc.devRef .tc b) = after (Cert.Lock.KD1 (F := Ideal)) Kc (Proc.devRef .tc b) :=
    fun b hb => (Wexit1_of_ne (V11 (X8 m)) c b hb).trans (congrFun hV11 _)
  have ho0 : (X12 m c (Proc.devRef .tc main_v110) : S1x1.Idx → EReal) (ix2 0 0) = ∑ l : Fin 128, a l * A16 l := by
    refine (congrFun (e1 main_v110 (by decide)) (ix2 0 0)).trans ((off0 Kc _ _ rfl rfl).trans ?_)
    show (_ : EReal) = _
    exact Finset.sum_congr rfl fun l _ => by rw [haC l, h16C l]
  have ho1 : (X12 m c (Proc.devRef .tc main_v114) : S1x1.Idx → EReal) (ix2 0 0) = ∑ l : Fin 128, a l * A18 l := by
    refine (congrFun (e1 main_v114 (by decide)) (ix2 0 0)).trans ((off1 Kc _ _ rfl rfl).trans ?_)
    show (_ : EReal) = _
    exact Finset.sum_congr rfl fun l _ => by rw [haC l, h18C l]
  obtain ⟨p3, p4, p9, p10, p15, p16, p17, p18, -, -⟩ := pre_real m hpre c
  have r9 : ∀ k i, ∃ x : ℝ, A9 k i = (x : EReal) := fun k i => h9 k i ▸ p9 _
  have r10 : ∀ k, ∃ x : ℝ, A10 k = (x : EReal) := fun k => h10 k ▸ p10 _
  have hlast : idx.val - 200010 < 200000 := by have := idx.isLt; omega
  refine (att_kernel (X12 m c) _ _ _ _ _ _ rfl rfl rfl rfl rfl rfl idx).trans ?_
  show (_ : EReal) = _
  by_cases c5 : idx.val < 5
  · simp only [dif_pos c5]
    exact Finset.sum_congr rfl fun l _ => by rw [haX l, hEH]
  · by_cases c10 : idx.val < 10
    · simp only [dif_neg c5, dif_pos c10]
      exact Finset.sum_congr rfl fun l _ => by rw [haX l, hENH]
    · by_cases c2 : idx.val < 200010
      · simp only [dif_neg c5, dif_neg c10, dif_pos c2]
        rw [hlg0, ho0, padRow_mk _ _ (show idx.val - 10 < 200000 by omega)]
        exact fold_query a (hid A3 A9 A10 _) A15 A16 ra (hid_real A3 A9 A10 (fun r i => h3 r i ▸ p3 _) r9 r10 _)
          (fun l k => h15 l k ▸ p15 _) fun l => h16 l ▸ p16 _
      · simp only [dif_neg c5, dif_neg c10, dif_neg c2]
        rw [hlg1, ho1, padRow_mk _ _ hlast]
        exact fold_query a (hid A4 A9 A10 _) A17 A18 ra (hid_real A4 A9 A10 (fun r i => h4 r i ▸ p4 _) r9 r10 _)
          (fun l k => h17 l k ▸ p17 _) fun l => h18 l ▸ p18 _

end KSide
end Cert.Alg

namespace Cert.Alg

open Idealize.ShloMosaic Idealize.ShloMosaic.TcCoe Idealize.ShloMosaic.StableHlo Idealize.ShloMosaic.ValueIdx

section Agreements
variable {V₁ : Valuation Cert.KernelIdeal.τ Cert.KernelIdeal.sig (Elt Ideal)}
  {V₂ : Valuation Cert.ReferenceIdeal.τ Cert.ReferenceIdeal.sig (Elt Ideal)}
  (h : Agree (τ := Cert.KernelIdeal.τ) Cert.Lock.QC' V₁ V₂)
include h

theorem agree_query : (V₁ (Proc.devRef .tc Cert.KernelIdeal.main_v104) : Cert.KernelIdeal.S1x128.Idx → EReal)
    = V₂ (Proc.devRef .tc Cert.ReferenceIdeal.main_v106) := eq_of_heq (h.get (by decide))
theorem agree_hero0 : (V₁ (Proc.devRef .tc Cert.KernelIdeal.main_v15) : Cert.KernelIdeal.S5x128.Idx → EReal)
    = V₂ (Proc.devRef .tc Cert.ReferenceIdeal.main_v15) := eq_of_heq (h.get (by decide))
theorem agree_hero1 : (V₁ (Proc.devRef .tc Cert.KernelIdeal.main_v28) : Cert.KernelIdeal.S5x128.Idx → EReal)
    = V₂ (Proc.devRef .tc Cert.ReferenceIdeal.main_v28) := eq_of_heq (h.get (by decide))
theorem agree_bias0 : (V₁ (Proc.devRef .tc Cert.KernelIdeal.main_arg16) : Cert.KernelIdeal.S128.Idx → EReal)
    = V₂ (Proc.devRef .tc Cert.ReferenceIdeal.main_arg16) := eq_of_heq (h.get (by decide))
theorem agree_bias1 : (V₁ (Proc.devRef .tc Cert.KernelIdeal.main_arg18) : Cert.KernelIdeal.S128.Idx → EReal)
    = V₂ (Proc.devRef .tc Cert.ReferenceIdeal.main_arg18) := eq_of_heq (h.get (by decide))
end Agreements

open Cert.Spec Cert.Ref.Val

theorem df2 (m : (ℓ : Loc Cert.KernelIdeal.nD Cert.KernelIdeal.τ Cert.KernelIdeal.sig) → Buf (Elt Ideal) ℓ)
    [Cert.Pre_finite_inputs.Facts] (hpre : Cert.Pre_KernelIdeal m) (c : Dev Cert.KernelIdeal.nD)
    (Ra : Valuation Cert.ReferenceIdeal.τ Cert.ReferenceIdeal.sig (Elt Ideal))
    (hA : Agree (τ := Cert.KernelIdeal.τ) Cert.Lock.QA (Cert.KernelIdeal.Hand.V7 (F := Ideal) m c) Ra)
    (Kc : Valuation Cert.KernelIdeal.τ Cert.KernelIdeal.sig (Elt Ideal))
    (hV11 : Cert.KernelIdeal.Hand.V11 (Cert.KernelIdeal.Hand.X8 m) c = after (Cert.Lock.KD1 (F := Ideal)) Kc)
    (hC : Agree (τ := Cert.KernelIdeal.τ) Cert.Lock.QC' Kc (Rc Ra))
    (hD1 : Agree (τ := Cert.KernelIdeal.τ) Cert.Lock.QC' (Cert.KernelIdeal.Hand.V11 (Cert.KernelIdeal.Hand.X8 m) c) (Rc Ra))
    (hX : Agree (τ := Cert.KernelIdeal.τ) Cert.Lock.QC' (Cert.KernelIdeal.Hand.X12 m c) (Rc Ra)) :
    HEq (after (Cert.Lock.KD2 (F := Ideal)) (Cert.KernelIdeal.Hand.X12 m c) (Proc.devRef .tc Cert.KernelIdeal.main_v131))
      (after (Cert.Ref.RD (F := Ideal)) (Rc Ra) (Proc.devRef .tc Cert.ReferenceIdeal.main_v108)) :=
  heq_of_eq (row_ext (n := 400010) fun idx => (kcol m c Kc hV11 (Q106 (Rc Ra))
      (fun r l => (Rc Ra (Proc.devRef .tc Cert.ReferenceIdeal.main_v15) : Cert.ReferenceIdeal.S5x128.Idx → EReal) (ix2 r l))
      (fun r l => (Rc Ra (Proc.devRef .tc Cert.ReferenceIdeal.main_v28) : Cert.ReferenceIdeal.S5x128.Idx → EReal) (ix2 r l))
      (X3 Ra) (X4 Ra) (Wb9 Ra) (bb10 Ra) (Wg15 Ra) (Wg17 Ra) (bg16 Ra) (bg18 Ra)
      (fun l => congrFun (agree_query hX) (ix2 0 l)) (fun l => congrFun (agree_query hD1) (ix2 0 l))
      (fun l => congrFun (agree_query hC) (ix2 0 l))
      (fun r l => congrFun (agree_hero0 hX) (ix2 r l)) (fun r l => congrFun (agree_hero1 hX) (ix2 r l))
      (fun l => (congrFun (agree_bias0 hC) (ix1 l)).trans (rc_arg16 Ra l))
      (fun l => (congrFun (agree_bias1 hC) (ix1 l)).trans (rc_arg18 Ra l))
      (arg3_eq hA) (arg4_eq hA) (arg9_eq hA) (arg10_eq hA) (arg15_eq hA) (arg17_eq hA) (arg16_eq hA) (arg18_eq hA)
      hpre (q_real hpre hA) idx).trans (rcol Ra idx).symm)

end Cert.Alg

end
-- ==== Proof.KISimA.lean ====
import proofs.«404624_j46557445488821_3_alg».proof.Proof.KILock

noncomputable section

namespace Cert.Lock

open Idealize.ShloMosaic Idealize.ShloMosaic.StableHlo

/-- The environment embedding, then for each hero group the basic layer, the group's own layer and its maximum over the rows. -/
theorem simA : Sim (τ := Cert.KernelIdeal.τ) (Val := Elt Ideal) P0 (KA (F := Ideal)) (Cert.Ref.RA (F := Ideal)) QA := by
  s_un; s_bin; s_un; s_bin; s_nul; s_un; s_bin
  s_un; s_bin; s_un; s_un; s_bin; s_nul; s_un; s_bin; s_un; s_bin; s_un; s_un; s_bin; s_nul; s_bin; s_un
  s_un; s_bin; s_un; s_un; s_bin; s_nul; s_un; s_bin; s_un; s_bin; s_un; s_un; s_bin; s_nul; s_bin; s_un
  exact Sim.done (by decide)

theorem skipB1 : Sim (τ := Cert.KernelIdeal.τ) (Val := Elt Ideal) QA (KB1 (F := Ideal)) [] QA := by
  iterate 20 s_skL
  exact Sim.done (List.Subset.refl _)

theorem skipRB : Sim (τ := Cert.KernelIdeal.τ) (Val := Elt Ideal) QA [] (Cert.Ref.RB (F := Ideal)) QA := by
  iterate 33 s_skR
  exact Sim.done (List.Subset.refl _)

theorem skipB2 : Sim (τ := Cert.KernelIdeal.τ) (Val := Elt Ideal) QA (KB2 (F := Ideal)) [] QA := by
  iterate 4 s_skL
  exact Sim.done (List.Subset.refl _)

end Cert.Lock

end
-- ==== Proof.KISimC.lean ====
import proofs.«404624_j46557445488821_3_alg».proof.Proof.KILock

noncomputable section

namespace Idealize.ShloMosaic.StableHlo

variable {τ : Topo} {sig sig₁ sig₂ : RefSig} {Val : EltTy → Type}

theorem nary5_result {x0 x1 x2 x3 x4 y : Ref sig .tc}
    (f : ((k : Fin 5) → ((![x0, x1, x2, x3, x4] : Fin 5 → Ref sig .tc) k).ty.Contents Val) → y.ty.Contents Val) (hxs hy)
    (F : Valuation τ sig Val) :
    (nary (τ := τ) ![x0, x1, x2, x3, x4] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (fun i => i.elim0)))))) := by
  rw [nary_result]; congr 1; funext k; fin_cases k <;> rfl

theorem Sim.nary5 {P Q : List (Ref sig₁ .tc × Ref sig₂ .tc)} {ops : List (HloOp τ sig₁ Val)} {ops' : List (HloOp τ sig₂ Val)}
    {x0 x1 x2 x3 x4 y : Ref sig₁ .tc} {x0' x1' x2' x3' x4' y' : Ref sig₂ .tc}
    {f : ((k : Fin 5) → ((![x0, x1, x2, x3, x4] : Fin 5 → Ref sig₁ .tc) k).ty.Contents Val) → y.ty.Contents Val}
    {f' : ((k : Fin 5) → ((![x0', x1', x2', x3', x4'] : Fin 5 → Ref sig₂ .tc) k).ty.Contents Val) → y'.ty.Contents Val}
    {hxs hy hxs' hy'}
    (hin0 : (x0, x0') ∈ P) (hin1 : (x1, x1') ∈ P) (hin2 : (x2, x2') ∈ P) (hin3 : (x3, x3') ∈ P) (hin4 : (x4, x4') ∈ P)
    (hf : ∀ (u0 : x0.ty.Contents Val) (u0' : x0'.ty.Contents Val) (u1 : x1.ty.Contents Val) (u1' : x1'.ty.Contents Val)
        (u2 : x2.ty.Contents Val) (u2' : x2'.ty.Contents Val) (u3 : x3.ty.Contents Val) (u3' : x3'.ty.Contents Val)
        (u4 : x4.ty.Contents Val) (u4' : x4'.ty.Contents Val),
        HEq u0 u0' → HEq u1 u1' → HEq u2 u2' → HEq u3 u3' → HEq u4 u4' →
        HEq (f (Fin.cons u0 (Fin.cons u1 (Fin.cons u2 (Fin.cons u3 (Fin.cons u4 (fun i => i.elim0)))))))
          (f' (Fin.cons u0' (Fin.cons u1' (Fin.cons u2' (Fin.cons u3' (Fin.cons u4' (fun i => i.elim0))))))))
    (hfy : y ∉ P.map Prod.fst) (hfy' : y' ∉ P.map Prod.snd)
    (k : Sim ((y, y') :: P) ops ops' Q) :
    Sim P (StableHlo.nary (τ := τ) ![x0, x1, x2, x3, x4] y f hxs hy :: ops)
      (StableHlo.nary (τ := τ) ![x0', x1', x2', x3', x4'] y' f' hxs' hy' :: ops') Q :=
  Sim.step (fun V₁ V₂ h => h.write rfl rfl hfy hfy' (by
    rw [nary5_result, nary5_result]
    exact hf _ _ _ _ _ _ _ _ _ _ (h.get hin0) (h.get hin1) (h.get hin2) (h.get hin3) (h.get hin4))) k

end Idealize.ShloMosaic.StableHlo

namespace Cert.Lock

open Idealize.ShloMosaic Idealize.ShloMosaic.StableHlo

/-- The five pooled rows side by side, the pre-layer, one step of the recurrent cell (three logistic gates, the candidate, the new cell and hidden states) and the attention query. -/
theorem simC : Sim (τ := Cert.KernelIdeal.τ) (Val := Elt Ideal) QC (KC (F := Ideal)) (Cert.Ref.RC (F := Ideal)) QC' := by
  refine Sim.nary5 (by decide) (by decide) (by decide) (by decide) (by decide)
    (fun _ _ _ _ _ _ _ _ _ _ h0 h1 h2 h3 h4 => by cases h0; cases h1; cases h2; cases h3; cases h4; rfl) (by decide) (by decide) ?_
  s_un; s_bin; s_un; s_bin; s_nul; s_un; s_bin; s_resh; s_resh
  s_un; s_bin; s_un; s_bin; s_un; s_bin; s_un; s_bin; s_bin
  s_un; s_un; s_un; s_un
  s_un; s_un; s_nul; s_un; s_bin; s_nul; s_un; s_bin; s_bin
  s_un; s_un; s_nul; s_un; s_bin; s_nul; s_un; s_bin; s_un; s_bin; s_bin
  s_un; s_un; s_nul; s_un; s_bin; s_nul; s_un; s_bin; s_un; s_bin
  s_un; s_bin; s_un; s_bin
  exact Sim.done (by decide)

theorem skipD1 : Sim (τ := Cert.KernelIdeal.τ) (Val := Elt Ideal) QC' (KD1 (F := Ideal)) [] QC' := by
  iterate 15 s_skL
  exact Sim.done (fun _ h => h)

theorem skipD2 : Sim (τ := Cert.KernelIdeal.τ) (Val := Elt Ideal) QC' (KD2 (F := Ideal)) (Cert.Ref.RD (F := Ideal)) QC' := by
  iterate 13 s_skL
  iterate 2 s_skR
  exact Sim.done (fun _ h => h)

end Cert.Lock

end
-- ==== Proof.KISimE.lean ====
import proofs.«404624_j46557445488821_3_alg».proof.Proof.KILock

noncomputable section

namespace Cert.Lock

open Idealize.ShloMosaic Idealize.ShloMosaic.StableHlo

/-- The three heads read only the new states and their own weights; the softmax of the logits is passed over on either side. -/
theorem simE1 : Sim (τ := Cert.KernelIdeal.τ) (Val := Elt Ideal) QE (KE (F := Ideal)) (Cert.Ref.RE (F := Ideal)) OUT1 := by
  refine Sim.pre
    [(Cert.KernelIdeal.main_v100, Cert.ReferenceIdeal.main_v102), (Cert.KernelIdeal.main_v92, Cert.ReferenceIdeal.main_v94),
     (Cert.KernelIdeal.main_arg25, Cert.ReferenceIdeal.main_arg25), (Cert.KernelIdeal.main_arg26, Cert.ReferenceIdeal.main_arg26),
     (Cert.KernelIdeal.main_arg27, Cert.ReferenceIdeal.main_arg27), (Cert.KernelIdeal.main_arg28, Cert.ReferenceIdeal.main_arg28),
     (Cert.KernelIdeal.main_arg29, Cert.ReferenceIdeal.main_arg29), (Cert.KernelIdeal.main_arg30, Cert.ReferenceIdeal.main_arg30)]
    (by decide) ?_
  iterate 14 s_skL
  s_un; s_bin; s_un; s_bin; s_nul; s_bin; s_nul; s_un; s_bin; s_un; s_un; s_bin; s_un; s_nul; s_bin; s_un; s_un; s_bin
  s_un; s_bin; s_un; s_bin; s_nul; s_bin; s_nul; s_un; s_bin; s_un; s_un; s_bin; s_un; s_nul; s_bin; s_un; s_un; s_bin
  s_un; s_bin; s_un; s_bin; s_nul; s_bin; s_nul; s_un; s_bin; s_un; s_un; s_bin; s_un; s_nul; s_bin; s_un; s_un; s_bin
  iterate 14 s_skR
  s_un; s_un
  exact Sim.done (by decide)

/-- The softmax of the logits reads only the logits; the three heads and the two states are passed over on either side. -/
theorem simE2 : Sim (τ := Cert.KernelIdeal.τ) (Val := Elt Ideal) QE (KE (F := Ideal)) (Cert.Ref.RE (F := Ideal)) OUT2 := by
  refine Sim.pre [(Cert.KernelIdeal.main_v131, Cert.ReferenceIdeal.main_v108)] (by decide) ?_
  iterate 54 s_skR
  s_nul; s_bin; s_nul; s_un; s_bin; s_un; s_un; s_bin; s_un; s_nul; s_bin; s_un; s_un; s_bin
  refine Sim.pre OUT2 (by decide) ?_
  iterate 56 s_skL
  iterate 2 s_skR
  exact Sim.done (List.Subset.refl _)

end Cert.Lock

end
-- ==== Proof.KIAlg.lean ====
import proofs.«404624_j46557445488821_3_alg».proof.Proof.KIChain
import proofs.«404624_j46557445488821_3_alg».proof.Proof.KIDf1
import proofs.«404624_j46557445488821_3_alg».proof.Proof.KIDf2
import proofs.«404624_j46557445488821_3_alg».proof.Proof.KISimA
import proofs.«404624_j46557445488821_3_alg».proof.Proof.KISimC
import proofs.«404624_j46557445488821_3_alg».proof.Proof.KISimE
import proofs.«404624_j46557445488821_3_alg».proof.Proof.RefArgs

set_option maxRecDepth 16384

noncomputable section

namespace Cert.Alg

open Idealize.ShloMosaic Idealize.ShloMosaic.TcCoe Idealize.ShloMosaic.StableHlo Idealize.SL.Sem
open Cert.Lock Cert.KernelIdeal.Hand

variable [Cert.Pre_finite_inputs.Facts]

theorem QA_ne_v51 : ∀ p ∈ QA, p.1 ≠ Cert.KernelIdeal.main_v51 := fun p hp e =>
  absurd (e ▸ List.mem_map_of_mem (f := Prod.fst) hp : Cert.KernelIdeal.main_v51 ∈ QA.map Prod.fst) (by decide)
theorem QC'_ne_v118 : ∀ p ∈ QC', p.1 ≠ Cert.KernelIdeal.main_v118 := fun p hp e =>
  absurd (e ▸ List.mem_map_of_mem (f := Prod.fst) hp : Cert.KernelIdeal.main_v118 ∈ QC'.map Prod.fst) (by decide)

/-- Agreement on the arguments is carried stretch by stretch to agreement on the six results. -/
theorem outs_agree (m : (ℓ : Loc Cert.KernelIdeal.nD Cert.KernelIdeal.τ Cert.KernelIdeal.sig) → Buf (Elt Ideal) ℓ) (hpre : Cert.Pre_KernelIdeal m)
    (R0 : Valuation Cert.ReferenceIdeal.τ Cert.ReferenceIdeal.sig (Elt Ideal)) (c : Dev Cert.KernelIdeal.nD)
    (h0 : Agree (τ := Cert.KernelIdeal.τ) P0 (V0 (F := Ideal) m c) R0) :
    Agree (τ := Cert.KernelIdeal.τ) OUT1 (V13 (X12 (F := Ideal) m) c) (after (Cert.Ref.ops (F := Ideal)) R0)
      ∧ Agree (τ := Cert.KernelIdeal.τ) OUT2 (V13 (X12 (F := Ideal) m) c) (after (Cert.Ref.ops (F := Ideal)) R0) := by
  have hA := simA _ _ h0
  have hB1 : Agree (τ := Cert.KernelIdeal.τ) QA (V7 (F := Ideal) m c) (after (Cert.Ref.RA (F := Ideal)) R0) := by
    rw [V7_cut]; exact skipB1 _ _ hA
  have hX8 : Agree (τ := Cert.KernelIdeal.τ) QA (X8 (F := Ideal) m c) (after (Cert.Ref.RB (F := Ideal)) (after (Cert.Ref.RA (F := Ideal)) R0)) :=
    (skipRB _ _ hB1).congr_left fun p hp => Wexit0_of_ne (V7 m) c p.1 (QA_ne_v51 p hp)
  have hC := simC _ _ (Agree.cons (df1_0 m c _ hB1) (Agree.cons (df1_1 m c _ hB1) (skipB2 _ _ hX8)))
  have hD1 : Agree (τ := Cert.KernelIdeal.τ) QC' (V11 (X8 (F := Ideal) m) c) (after (Cert.Ref.RC (F := Ideal)) (after (Cert.Ref.RB (F := Ideal)) (after (Cert.Ref.RA (F := Ideal)) R0))) := by
    rw [V11_cut]; exact skipD1 _ _ hC
  have hX12 : Agree (τ := Cert.KernelIdeal.τ) QC' (X12 (F := Ideal) m c) (after (Cert.Ref.RC (F := Ideal)) (after (Cert.Ref.RB (F := Ideal)) (after (Cert.Ref.RA (F := Ideal)) R0))) :=
    hD1.congr_left fun p hp => Wexit1_of_ne (V11 (X8 m)) c p.1 (QC'_ne_v118 p hp)
  have hQE := Agree.cons (df2 m hpre c _ hB1 _ (V11_cut c (X8 m)) hC hD1 hX12) (skipD2 _ _ hX12)
  rw [V13_cut, Cert.Ref.after_ops_cut]
  exact ⟨simE1 _ _ hQE, simE2 _ _ hQE⟩

open Cert.KernelIdeal in
theorem algebraic : Cert.algebraic_KernelIdeal_ReferenceIdeal := by
  intro m g m' g' hpre hagree
  have hout : ∀ c : Dev Cert.KernelIdeal.nD, _ := fun c =>
    outs_agree m hpre (launchContents m' c) c (by
      have h := hagree c
      iterate 32 (refine Agree.cons (heq_of_eq h.1).symm ?_; replace h := h.2)
      exact Agree.cons (heq_of_eq h).symm Agree.nil)
  refine ⟨fun c => V13 (X12 (F := Ideal) m) c (Proc.devRef .tc main_v157), fun c => V13 (X12 (F := Ideal) m) c (Proc.devRef .tc main_v172), fun c => V13 (X12 (F := Ideal) m) c (Proc.devRef .tc main_v187), fun c => V13 (X12 (F := Ideal) m) c (Proc.devRef .tc main_v142), fun c => V13 (X12 (F := Ideal) m) c (Proc.devRef .tc main_v188), fun c => V13 (X12 (F := Ideal) m) c (Proc.devRef .tc main_v189), ?_, ?_⟩
  · exact (θ_run Cert.KernelIdeal.defs _ _).mono (fun r h c => by
      have k := fun (b : Ref sig .tc) hb => h c _ (mem_uc b hb)
      refine ⟨k _ (by decide), k _ (by decide), k _ (by decide), k _ (by decide), k _ (by decide), k _ (by decide), ?_⟩
      and_intros <;> exact (k _ (by decide)).trans (final_arg m c _ (by decide))) (run_main (F := Ideal) m g)
  · exact (θ_run Cert.ReferenceIdeal.defs _ _).mono (fun r h c => by
      refine ⟨(h c _).trans (eq_of_heq ((hout c).1.get (by decide))).symm, (h c _).trans (eq_of_heq ((hout c).1.get (by decide))).symm,
        (h c _).trans (eq_of_heq ((hout c).1.get (by decide))).symm, (h c _).trans (eq_of_heq ((hout c).2.get (by decide))).symm,
        (h c _).trans (eq_of_heq ((hout c).1.get (by decide))).symm, (h c _).trans (eq_of_heq ((hout c).1.get (by decide))).symm, ?_⟩
      and_intros <;> exact (h c _).trans (Cert.Ref.after_ops_arg _ (by decide))) (Cert.Ref.run_after (F := Ideal) m' g')

theorem frame_ref : Cert.frame_ReferenceIdeal := fun m ρ _ =>
  (θ_run Cert.ReferenceIdeal.defs _ _).mono (fun r h c => by
    and_intros <;> exact (h c _).trans (Cert.Ref.after_ops_arg _ (by decide))) (Cert.Ref.run_after (F := Ideal) m ρ)

end Cert.Alg

end
-- ==== Proof.lean ====
import proofs.«404624_j46557445488821_3_alg».proof.Defs
import proofs.«404624_j46557445488821_3_alg».proof.Proof.Gen.Kernel
import proofs.«404624_j46557445488821_3_alg».proof.Proof.Gen.KernelIdeal
import proofs.«404624_j46557445488821_3_alg».proof.Proof.Gen.ReferenceIdeal
import proofs.«404624_j46557445488821_3_alg».proof.Proof.Gen.Pre_finite_inputs
import proofs.«404624_j46557445488821_3_alg».proof.Proof.KRun
import proofs.«404624_j46557445488821_3_alg».proof.Proof.KIAlg
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

-- The running maximum starts from a named constant whose ideal value is −∞.
theorem preserves : Cert.preserves_Kernel_KernelIdeal :=
  IdealRules.named_const.statement Cert.KernelIdeal.κ "neg_big" .f32 0xF149F2CA#32 ⊥ rfl

theorem claim : Cert.Claim := ⟨Cert.Kernel.Gen.facts, Cert.KernelIdeal.Gen.facts, Cert.ReferenceIdeal.Gen.facts, Cert.Pre_finite_inputs.Gen.facts,
  frame_k, frame_ki, Cert.Alg.frame_ref, preserves, Cert.Alg.algebraic⟩

end Cert.Proof

end
